-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128 .f32) (main_arg7 : FVec F S128x10 .f32) (main_arg8 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x10 .f32) (main_arg8 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S1x10 : Shape := ⟨2, ![1, 10]⟩
abbrev S64x10 : Shape := ⟨2, ![64, 10]⟩
abbrev S2000x1 : Shape := ⟨2, ![2000, 1]⟩
abbrev S64x128 : Shape := ⟨2, ![64, 128]⟩
abbrev S64x1 : Shape := ⟨2, ![64, 1]⟩
abbrev S2000x64 : Shape := ⟨2, ![2000, 64]⟩

abbrev nBuf : Space → Nat
  | .hbm => 148
  | .vmem => 49
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x128, .bf16⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .bf16⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x1, .f32⟩
  | 64 => ⟨S100000x128, .f32⟩
  | 65 => ⟨S100000x128, .f32⟩
  | 66 => ⟨S100000x128, .f32⟩
  | 67 => ⟨S100000x128, .f32⟩
  | 68 => ⟨S1x128, .f32⟩
  | 69 => ⟨S100000x128, .bf16⟩
  | 70 => ⟨S100000x128, .bf16⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x128, .bf16⟩
  | 80 => ⟨S1600000x128, .f32⟩
  | 81 => ⟨S1600000x1, .f32⟩
  | 82 => ⟨S1600000x128, .f32⟩
  | 83 => ⟨S1600000x128, .f32⟩
  | 84 => ⟨S_, .f32⟩
  | 85 => ⟨S100000x128, .f32⟩
  | 86 => ⟨S1600000x1, .i32⟩
  | 87 => ⟨S100000x128, .f32⟩
  | 88 => ⟨S100000x1, .f32⟩
  | 89 => ⟨S100000x128, .f32⟩
  | 90 => ⟨S100000x128, .f32⟩
  | 91 => ⟨S100000x128, .f32⟩
  | 92 => ⟨S100000x128, .f32⟩
  | 93 => ⟨S1x128, .f32⟩
  | 94 => ⟨S100000x128, .bf16⟩
  | 95 => ⟨S100000x128, .bf16⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x128, .bf16⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x1, .f32⟩
  | 114 => ⟨S100000x128, .f32⟩
  | 115 => ⟨S100000x128, .f32⟩
  | 116 => ⟨S100000x128, .f32⟩
  | 117 => ⟨S100000x128, .f32⟩
  | 118 => ⟨S1x128, .f32⟩
  | 119 => ⟨S100000x128, .bf16⟩
  | 120 => ⟨S100000x128, .bf16⟩
  | 121 => ⟨S_, .i32⟩
  | 122 => ⟨S1600000, .i32⟩
  | 123 => ⟨S1600000, .i1⟩
  | 124 => ⟨S_, .i32⟩
  | 125 => ⟨S1600000, .i32⟩
  | 126 => ⟨S1600000, .i32⟩
  | 127 => ⟨S1600000, .i32⟩
  | _ => ⟨S100000x128, .f32⟩

abbrev hbmTy0_1 (i : Nat) : BufTy := match i % 128 with
  | 0 => ⟨S1600000x1, .i32⟩
  | 1 => ⟨S1600000x128, .bf16⟩
  | 2 => ⟨S1600000x128, .f32⟩
  | 3 => ⟨S1600000x1, .f32⟩
  | 4 => ⟨S1600000x128, .f32⟩
  | 5 => ⟨S1600000x128, .f32⟩
  | 6 => ⟨S_, .f32⟩
  | 7 => ⟨S100000x128, .f32⟩
  | 8 => ⟨S1600000x1, .i32⟩
  | 9 => ⟨S100000x128, .f32⟩
  | 10 => ⟨S100000x1, .f32⟩
  | 11 => ⟨S100000x128, .f32⟩
  | 12 => ⟨S100000x128, .f32⟩
  | 13 => ⟨S100000x128, .f32⟩
  | 14 => ⟨S100000x128, .f32⟩
  | 15 => ⟨S1x128, .f32⟩
  | 16 => ⟨S100000x128, .bf16⟩
  | 17 => ⟨S100000x1, .i32⟩
  | 18 => ⟨S1x10, .f32⟩
  | 19 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x128, .f32⟩
  | .local _ .vmem, ⟨23, _⟩ => ⟨S2000x128, .bf16⟩
  | .local _ .vmem, ⟨24, _⟩ => ⟨S2000x128, .bf16⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .bf16⟩
  | .local _ .vmem, ⟨29, _⟩ => ⟨S2000x128, .bf16⟩
  | .local _ .vmem, ⟨30, _⟩ => ⟨S2000x128, .bf16⟩
  | .local _ .vmem, ⟨31, _⟩ => ⟨S2000x128, .bf16⟩
  | .local _ .vmem, ⟨32, _⟩ => ⟨S128x128, .f32⟩
  | .local _ .vmem, ⟨33, _⟩ => ⟨S2000x128, .bf16⟩
  | .local _ .vmem, ⟨34, _⟩ => ⟨S2000x128, .bf16⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S2000x128, .bf16⟩
  | .local _ .vmem, ⟨39, _⟩ => ⟨S2000x128, .bf16⟩
  | .local _ .vmem, ⟨40, _⟩ => ⟨S2000x128, .bf16⟩
  | .local _ .vmem, ⟨41, _⟩ => ⟨S2000x128, .bf16⟩
  | .local _ .vmem, ⟨42, _⟩ => ⟨S2000x1, .i32⟩
  | .local _ .vmem, ⟨43, _⟩ => ⟨S2000x1, .i32⟩
  | .local _ .vmem, ⟨44, _⟩ => ⟨S128x10, .f32⟩
  | .local _ .vmem, ⟨45, _⟩ => ⟨S1x10, .f32⟩
  | .local _ .vmem, ⟨46, _⟩ => ⟨S64x10, .f32⟩
  | .local _ .vmem, ⟨47, _⟩ => ⟨S64x128, .f32⟩
  | .local _ .vmem, ⟨48, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_c_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_c_15 : Ref sig .tc := ⟨.hbm, 121, rfl⟩
abbrev main_v95 : Ref sig .tc := ⟨.hbm, 122, rfl⟩
abbrev main_v96 : Ref sig .tc := ⟨.hbm, 123, rfl⟩
abbrev main_c_16 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_17 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg3_0 : Ref sig .tc := ⟨.vmem, 45, rfl⟩
abbrev cc8_stg4_0 : Ref sig .tc := ⟨.vmem, 46, rfl⟩
abbrev cc8_scratch0 : Ref sig .tc := ⟨.vmem, 47, rfl⟩
abbrev cc8_scratch1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem3_0 : DmaSem sig := 45
abbrev cc8_sem4_0 : DmaSem sig := 46

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x128 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x128 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![50], ![false]⟩

def k8_cond2 (i : grid8.Coords) : BitVec 1 :=
  let arg0 : BitVec 32 := BitVec.ofNat 32 (i 0).val
  let c49_i32 : BitVec 32 := 49#32
  let v26 : BitVec 1 := Scalar.cmpi .eq arg0 c49_i32
  let v27 : BitVec 32 := Scalar.extui v26
  let c0_i32_14 : BitVec 32 := 0#32
  let v28 : BitVec 1 := Scalar.cmpi .ne v27 c0_i32_14
  v28

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S100000_S100000x1 : S100000.ShapeCasts S100000x1
  shapeCasts_S10_S1x10 : S10.ShapeCasts S1x10
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S2000x64_d1_w32 : S2000x64.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  natLt_1_32 : 1 < 32
  broadcasts_S64x1_S64x128 : S64x1.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x64_S2000x128_S64x128_0_0_1_1_n_n_wf : DotDims.WF S2000x64 S2000x128 S64x128 [0] [0] [1] [1] [] []
  dot_S2000x64_S2000x1_S64x1_0_0_1_1_n_n_wf : DotDims.WF S2000x64 S2000x1 S64x1 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .bf16 = 32 ∨ (Rect.block (s := S100000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .bf16 = 32 ∨ (Rect.block (s := S100000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .bf16 = 32 ∨ (Rect.block (s := S100000x128) S2000x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .bf16 = 32 ∨ (Rect.block (s := S100000x128) S2000x128.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .bf16 = 32 ∨ (Rect.block (s := S100000x128) S2000x128.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .bf16 = 32 ∨ (Rect.block (s := S100000x128) S2000x128.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .bf16 = 32 ∨ (Rect.block (s := S100000x128) S2000x128.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .bf16 = 32 ∨ (Rect.block (s := S100000x128) S2000x128.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x128.size a ≤ S100000x128.size a
  hwx6_2 : ∀ i : grid6.Coords, EltTy.bits .bf16 = 32 ∨ (Rect.block (s := S100000x128) S2000x128.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S100000x128.size a
  hwx7_0 : ∀ i : grid7.Coords, EltTy.bits .f32 = 32 ∨ (Rect.block (s := S100000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x128.size a ≤ S100000x128.size a
  hwx7_2 : ∀ i : grid7.Coords, EltTy.bits .bf16 = 32 ∨ (Rect.block (s := S100000x128) S2000x128.size (cc7_transform_2 i) (hinb7_2 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S100000x128.size a
  hwx8_0 : ∀ i : grid8.Coords, EltTy.bits .bf16 = 32 ∨ (Rect.block (s := S100000x128) S2000x128.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S100000x1.size a
  hwx8_1 : ∀ i : grid8.Coords, EltTy.bits .i32 = 32 ∨ (Rect.block (s := S100000x1) S2000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x10.size a ≤ S128x10.size a
  hwx8_2 : ∀ i : grid8.Coords, EltTy.bits .f32 = 32 ∨ (Rect.block (s := S128x10) S128x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x10.size a ≤ S1x10.size a
  hwx8_3 : ∀ i : grid8.Coords, EltTy.bits .f32 = 32 ∨ (Rect.block (s := S1x10) S1x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64x10.size a ≤ S64x10.size a
  hwx8_4 : ∀ i : grid8.Coords, EltTy.bits .f32 = 32 ∨ (Rect.block (s := S64x10) S64x10.size (cc8_transform_4 i) (hinb8_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S2000x64_S2000x1_S64x1_0_0_1_1_n_n : DotDims S2000x64 S2000x1 S64x1 where
  lhsContracting := [0]
  rhsContracting := [0]
  lhsNonContracting := [1]
  rhsNonContracting := [1]
  lhsBatch := []
  rhsBatch := []
  wf := dot_S2000x64_S2000x1_S64x1_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v69) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v71) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v93) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v94) S2000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v113) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v114) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v115) S2000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v115) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v116) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg7) S128x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v117) S1x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S64x10.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x10, .f32⟩
  | 8 => ⟨S10, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S_, .f32⟩
  | 23 => ⟨S100000, .f32⟩
  | 24 => ⟨S100000, .f32⟩
  | 25 => ⟨S100000x128, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x128, .f32⟩
  | 54 => ⟨S1600000x1, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x128, .f32⟩
  | 101 => ⟨S1600000x1, .f32⟩
  | 102 => ⟨S1600000x128, .f32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S100000, .f32⟩
  | 109 => ⟨S100000x1, .f32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .f32⟩
  | 119 => ⟨S100000x128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000, .f32⟩
  | 10 => ⟨S1600000, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S1600000x1, .f32⟩
  | 21 => ⟨S1600000x128, .f32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S100000, .f32⟩
  | 28 => ⟨S100000x1, .f32⟩
  | 29 => ⟨S100000x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S1600000x1, .f32⟩
  | 68 => ⟨S1600000x128, .f32⟩
  | 69 => ⟨S1600000x128, .f32⟩
  | 70 => ⟨S_, .f32⟩
  | 71 => ⟨S100000x128, .f32⟩
  | 72 => ⟨S1600000x1, .i32⟩
  | 73 => ⟨S100000x128, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S100000x128, .f32⟩
  | 84 => ⟨S100000x128, .f32⟩
  | 85 => ⟨S_, .f32⟩
  | 86 => ⟨S64x128, .f32⟩
  | 87 => ⟨S100000x1, .i32⟩
  | 88 => ⟨S64x128, .f32⟩
  | 89 => ⟨S_, .f32⟩
  | 90 => ⟨S100000, .f32⟩
  | 91 => ⟨S_, .f32⟩
  | 92 => ⟨S64, .f32⟩
  | 93 => ⟨S100000x1, .i32⟩
  | 94 => ⟨S64, .f32⟩
  | 95 => ⟨S_, .f32⟩
  | 96 => ⟨S64, .f32⟩
  | 97 => ⟨S64, .f32⟩
  | 98 => ⟨S64x1, .f32⟩
  | 99 => ⟨S64x128, .f32⟩
  | 100 => ⟨S64x128, .f32⟩
  | 101 => ⟨S64x10, .f32⟩
  | 102 => ⟨S1x10, .f32⟩
  | 103 => ⟨S64x10, .f32⟩
  | 104 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_v88 : Ref sig .tc := ⟨.hbm, 119, rfl⟩
abbrev main_c_16 : Ref sig .tc := ⟨.hbm, 120, rfl⟩
abbrev main_v89 : Ref sig .tc := ⟨.hbm, 121, rfl⟩
abbrev main_v90 : Ref sig .tc := ⟨.hbm, 122, rfl⟩
abbrev main_c_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_c_18 : Ref sig .tc := ⟨.hbm, 129, rfl⟩
abbrev main_v96 : Ref sig .tc := ⟨.hbm, 130, rfl⟩
abbrev main_v97 : Ref sig .tc := ⟨.hbm, 131, rfl⟩
abbrev main_c_19 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_20 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_22 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_call2_cst : Ref sig .tc := ⟨.hbm, 163, rfl⟩
abbrev main_call2_v0 : Ref sig .tc := ⟨.hbm, 164, rfl⟩
abbrev main_v125 : Ref sig .tc := ⟨.hbm, 165, rfl⟩
abbrev main_v126 : Ref sig .tc := ⟨.hbm, 166, rfl⟩
abbrev main_c_23 : Ref sig .tc := ⟨.hbm, 167, rfl⟩
abbrev main_v127 : Ref sig .tc := ⟨.hbm, 168, rfl⟩
abbrev main_v128 : Ref sig .tc := ⟨.hbm, 169, rfl⟩
abbrev main_c_24 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_c_25 : Ref sig .tc := ⟨.hbm, 176, rfl⟩
abbrev main_v134 : Ref sig .tc := ⟨.hbm, 177, rfl⟩
abbrev main_v135 : Ref sig .tc := ⟨.hbm, 178, rfl⟩
abbrev main_c_26 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_c_27 : Ref sig .tc := ⟨.hbm, 186, rfl⟩
abbrev main_v142 : Ref sig .tc := ⟨.hbm, 187, rfl⟩
abbrev main_v143 : Ref sig .tc := ⟨.hbm, 188, rfl⟩
abbrev main_c_28 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_29 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_call3_cst : Ref sig .tc := ⟨.hbm, 210, rfl⟩
abbrev main_call3_v0 : Ref sig .tc := ⟨.hbm, 211, rfl⟩
abbrev main_v163 : Ref sig .tc := ⟨.hbm, 212, rfl⟩
abbrev main_cst_30 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_31 : Ref sig .tc := ⟨.hbm, 217, rfl⟩
abbrev main_v167 : Ref sig .tc := ⟨.hbm, 218, rfl⟩
abbrev main_cst_32 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_33 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x10_S64x10_1_0_0_1_n_n_wf : DotDims.WF S64x128 S128x10 S64x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.Spec.lean ====
import proofs.«404363_j60902636257457_1_alg».proof.ReferenceIdeal

noncomputable section

namespace Cert.Spec

open Idealize.ShloMosaic Cert.ReferenceIdeal
open Cert.ReferenceIdeal.Facts₀ Cert.ReferenceIdeal.Facts

variable {F : FTy → Type} [FloatOps F] [Cert.ReferenceIdeal.Facts]

def src (ei : IVec S2x1600000 32) : IVec S1600000 32 :=
  shapeCast _ (extractStridedSlice S1x1600000 ![0, 0] ei slices_S2x1600000_S1x1600000_0_0) shapeCasts_S1x1600000_S1600000

def dst (ei : IVec S2x1600000 32) : IVec S1600000 32 :=
  shapeCast _ (extractStridedSlice S1x1600000 ![1, 0] ei slices_S2x1600000_S1x1600000_1_0) shapeCasts_S1x1600000_S1600000

def wrap (i : IVec S1600000 32) : IVec S1600000 32 :=
  select (cmpi .slt i (broadcastInDim S1600000 ![] bcast_S_S1600000 (constantI S_ 32 0#32)))
    (addi i (broadcastInDim S1600000 ![] bcast_S_S1600000 (constantI S_ 32 100000#32))) i

def col (i : IVec S1600000 32) : IVec S1600000x1 32 := broadcastInDim S1600000x1 ![0] bcast_S1600000_S1600000x1_0 i

def dinv (ei : IVec S2x1600000 32) : FVec F S100000 .f32 :=
  Host.powf (addf (Host.scatterAdd scatter_S100000_S1600000x1_S1600000_n_0_0_1
        (broadcastInDim S100000 ![] bcast_S_S100000 (constant S_ .f32 0x00000000#32)) (col (dst ei))
        (broadcastInDim S1600000 ![] bcast_S_S1600000 (constant S_ .f32 0x3F800000#32)))
      (broadcastInDim S100000 ![] bcast_S_S100000 (constant S_ .f32 0x3F800000#32)))
    (broadcastInDim S100000 ![] bcast_S_S100000 (constant S_ .f32 0xBF000000#32))

def norm (ei : IVec S2x1600000 32) : FVec F S1600000 .f32 :=
  mulf (Host.gather gather_S100000_S1600000x1_S1600000_n_0_n_n_0_1_1 (dinv (F := F) ei) (col (wrap (src ei))))
    (Host.gather gather_S100000_S1600000x1_S1600000_n_0_n_n_0_1_1 (dinv (F := F) ei) (col (wrap (dst ei))))

def lin (h : FVec F S100000x128 .f32) (W : FVec F S128x128 .f32) : FVec F S100000x128 .f32 :=
  Host.dotGeneral dot_S100000x128_S128x128_S100000x128_1_0_0_1_n_n none h W

def aggOf (s d : IVec S1600000 32) (nrm : FVec F S1600000 .f32) (d2 : FVec F S100000 .f32) (hl : FVec F S100000x128 .f32) :
    FVec F S100000x128 .f32 :=
  addf (Host.scatterAdd scatter_S100000x128_S1600000x1_S1600000x128_1_0_0_1
      (broadcastInDim S100000x128 ![] bcast_S_S100000x128 (constant S_ .f32 0x00000000#32)) (col d)
      (mulf (Host.gather gather_S100000x128_S1600000x1_S1600000x128_1_0_n_n_0_1_1128 hl (col (wrap s)))
        (broadcastInDim S1600000x128 ![0, 1] bcast_S1600000x1_S1600000x128_0_1
          (broadcastInDim S1600000x1 ![0] bcast_S1600000_S1600000x1_0 nrm))))
    (mulf (broadcastInDim S100000x128 ![0, 1] bcast_S100000x1_S100000x128_0_1
        (broadcastInDim S100000x1 ![0] bcast_S100000_S100000x1_0 d2)) hl)

def agg (ei : IVec S2x1600000 32) (hl : FVec F S100000x128 .f32) : FVec F S100000x128 .f32 :=
  aggOf (src ei) (dst ei) (norm (F := F) ei) (mulf (dinv (F := F) ei) (dinv (F := F) ei)) hl

def actRow (a : FVec F S100000x128 .f32) (b2 : FVec F S1x128 .f32) : FVec F S100000x128 .f32 :=
  maximumf (addf a (broadcastInDim S100000x128 ![0, 1] bcast_S1x128_S100000x128_0_1 b2))
    (broadcastInDim S100000x128 ![] bcast_S_S100000x128 (constant S_ .f32 0x00000000#32))

def act (a : FVec F S100000x128 .f32) (b : FVec F S128 .f32) : FVec F S100000x128 .f32 :=
  actRow a (broadcastInDim S1x128 ![1] bcast_S128_S1x128_1 b)

def layer (ei : IVec S2x1600000 32) (h : FVec F S100000x128 .f32) (W : FVec F S128x128 .f32) (b : FVec F S128 .f32) :
    FVec F S100000x128 .f32 :=
  act (agg ei (lin h W)) b

def headRow (bcol : IVec S100000x1 32) (h : FVec F S100000x128 .f32) (Wm : FVec F S128x10 .f32) (bm2 : FVec F S1x10 .f32) :
    FVec F S64x10 .f32 :=
  addf (Host.dotGeneral dot_S64x128_S128x10_S64x10_1_0_0_1_n_n none
      (Host.divf (Host.scatterAdd scatter_S64x128_S100000x1_S100000x128_1_0_0_1
          (broadcastInDim S64x128 ![] bcast_S_S64x128 (constant S_ .f32 0x00000000#32)) bcol h)
        (broadcastInDim S64x128 ![0, 1] bcast_S64x1_S64x128_0_1 (broadcastInDim S64x1 ![0] bcast_S64_S64x1_0
          (maximumf (Host.scatterAdd scatter_S64_S100000x1_S100000_n_0_0_1
              (broadcastInDim S64 ![] bcast_S_S64 (constant S_ .f32 0x00000000#32)) bcol
              (broadcastInDim S100000 ![] bcast_S_S100000 (constant S_ .f32 0x3F800000#32)))
            (broadcastInDim S64 ![] bcast_S_S64 (constant S_ .f32 0x3F800000#32)))))) Wm)
    (broadcastInDim S64x10 ![0, 1] bcast_S1x10_S64x10_0_1 bm2)

def head (batch : IVec S100000 32) (h : FVec F S100000x128 .f32) (Wm : FVec F S128x10 .f32) (bm : FVec F S10 .f32) :
    FVec F S64x10 .f32 :=
  headRow (broadcastInDim S100000x1 ![0] bcast_S100000_S100000x1_0 batch) h Wm (broadcastInDim S1x10 ![1] bcast_S10_S1x10_1 bm)

def gcn (x : FVec F S100000x128 .f32) (ei : IVec S2x1600000 32) (batch : IVec S100000 32)
    (Win : FVec F S128x128 .f32) (bin : FVec F S128 .f32) (Wmid : FVec F S128x128 .f32) (bmid : FVec F S128 .f32)
    (Wm : FVec F S128x10 .f32) (bm : FVec F S10 .f32) : FVec F S64x10 .f32 :=
  head batch (layer ei (layer ei (layer ei (layer ei x Win bin) Wmid bmid) Wmid bmid) Wmid bmid) Wm bm

end Cert.Spec

end
-- ==== Proof.RefG.lean ====
import proofs.«404363_j60902636257457_1_alg».proof.Proof.Gen.ReferenceIdeal.Run
import proofs.«404363_j60902636257457_1_alg».proof.Proof.Spec
import Idealize.ShloMosaic.PureOps.Ideal

noncomputable section

namespace Cert.RefG

open Cert.ReferenceIdeal Cert.ReferenceIdeal.Gen Idealize.ShloMosaic Idealize.ShloMosaic.TcCoe Idealize.SL.Sem Idealize.ShloMosaic.StableHlo

variable [Cert.ReferenceIdeal.Facts]

set_option maxRecDepth 65536 in
theorem res_eq (m : (ℓ : Loc nD τ sig) → Buf (Elt Ideal) ℓ) (c : Dev nD) :
    Value.res_main_v179 (F := Ideal) m c
      = Cert.Spec.gcn (F := Ideal)
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Value.res_main_v179
  rfl

theorem frame_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => (h c).2) (Value.run (F := Ideal) m g)

end Cert.RefG

end
-- ==== Proof.KB.Reg0.lean ====
import proofs.«404363_j60902636257457_1_alg».proof.Proof.Gen.Kernel.Launch
import proofs.«404363_j60902636257457_1_alg».proof.Proof.Gen.Kernel.Skeleton
import proofs.«404363_j60902636257457_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev wholeTile : Rect S2000x128 := Rect.unit (s := S2000x128) ![0, 0] S2000x128.size inb_S2000x128_S2000x128_0_0

theorem zero2 : (![0, 0] : Fin 2 → Nat) = fun _ => 0 := by funext a; fin_cases a <;> rfl

-- Two whole-buffer loads and one store over the whole output leave the payload of what was read; the rest is framed.
set_option maxHeartbeats 1000000 in
theorem wp_loads_store {e0 e1 : EltTy} {d1 : Fin 2 → Nat} {D0 D1 D2 : Type} {c : Dev nD} {E : Set ℕ} {P Q : sProp 𝕄}
    {a0 : Memref sig .tc .vmem S2000x128 e0} {a1 : Memref sig .tc .vmem ⟨2, d1⟩ e1} {a2 : Memref sig .tc .vmem S2000x128 .bf16}
    {i1 : ∀ a, (![0, 0] : Fin 2 → Nat) a + d1 a ≤ d1 a}
    {l0 : a0.view.LoadsAt wholeTile.toLoadRect} {l1 : a1.view.LoadsAt (Rect.unit (s := ⟨2, d1⟩) ![0, 0] d1 i1).toLoadRect}
    {l2 : a2.view.LoadsAt wholeTile.toLoadRect} {hs : (a2.access wholeTile).Stores Finset.univ}
    {pay : Vec F S2000x128 e0 → Vec F ⟨2, d1⟩ e1 → Vec F S2000x128 .bf16}
    {b0 : D0 → Vec F S2000x128 e0} {b1 : D1 → Vec F ⟨2, d1⟩ e1} {b2 : D2 → Vec F S2000x128 .bf16}
    {x0 : Vec F S2000x128 e0} {x1 : Vec F ⟨2, d1⟩ e1} (h0 : ∀ d, b0 d = x0) (h1 : ∀ d, b1 d = x1) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E
          (do let v0 ← Prog.lift (.load a0 wholeTile.toLoadRect l0)
              let v2 ← Prog.lift (.load a1 (Rect.unit (s := ⟨2, d1⟩) ![0, 0] d1 i1).toLoadRect l1)
              let _ ← Prog.lift (.load a2 wholeTile.toLoadRect l2)
              Prog.lift (.store a2 wholeTile (pay v0 v2) Finset.univ hs (.inl rfl))
              pure ⟨⟩ : Prog (TpuEff nD τ sig (Elt F) Λ₀ .tc) PUnit)
          (fun _ => iprop(P ∗ Q ∗ owns (c : Thread nD τ) a0 fullShare x0 ∗ owns (c : Thread nD τ) a1 fullShare x1
            ∗ owns (c : Thread nD τ) a2 fullShare (pay x0 x1))) := by
  simp only [h0, h1]
  unfold owns
  iintro ⟨HP, HQ, ⟨%_, %f0, %hf0, H0⟩, ⟨%_, %f1, %hf1, H1⟩, ⟨%d2, %f2, -, H2⟩⟩
  subst hf0; subst hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero2 inb_S2000x128_S2000x128_0_0 y⟩),
    View.canon_unit_zero zero2]
  show pay (View.ld _ wholeTile) (View.ld _ (Rect.unit (s := ⟨2, d1⟩) ![0, 0] d1 i1)) = _
  rw [View.ld_unit_zero zero2, View.ld_unit_zero zero2]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S2000x128 .f32) (x1 : Vec F S128x128 .f32) : Vec F S2000x128 .bf16 := k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by
  dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  simp only [cc0__linear_kernel_eq_skeleton]; unfold cc0__linear_kernel_skel
  exact wp_loads_store ((dat0 V c).before_in_eq_fetched 0 rfl (fun _ => rfl) (fun _ _ _ => rfl) (fun _ => rfl) t)
    ((dat0 V c).before_in_eq_fetched 1 rfl (fun _ => rfl) (fun _ _ _ => rfl) (fun _ => rfl) t)

end Cert.Kernel.Gen
-- ==== Proof.KB.Reg1.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S2000x128 .f32) (x1 : Vec F S1x128 .f32) : Vec F S2000x128 .bf16 := k1_pay1 x0 x1

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by
  dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  simp only [cc1__relu_bias_kernel_eq_skeleton]; unfold cc1__relu_bias_kernel_skel
  exact wp_loads_store ((dat1 V c).before_in_eq_fetched 0 rfl (fun _ => rfl) (fun _ _ _ => rfl) (fun _ => rfl) t)
    ((dat1 V c).before_in_eq_fetched 1 rfl (fun _ => rfl) (fun _ _ _ => rfl) (fun _ => rfl) t)

end Cert.Kernel.Gen
-- ==== Proof.KB.Reg2.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S2000x128 .bf16) (x1 : Vec F S128x128 .f32) : Vec F S2000x128 .bf16 := k2_pay1 x0 x1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by
  dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  simp only [cc2__linear_kernel_eq_skeleton]; unfold cc2__linear_kernel_skel
  exact wp_loads_store ((dat2 V c).before_in_eq_fetched 0 rfl (fun _ => rfl) (fun _ _ _ => rfl) (fun _ => rfl) t)
    ((dat2 V c).before_in_eq_fetched 1 rfl (fun _ => rfl) (fun _ _ _ => rfl) (fun _ => rfl) t)

end Cert.Kernel.Gen
-- ==== Proof.KB.Reg3.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S2000x128 .f32) (x1 : Vec F S1x128 .f32) : Vec F S2000x128 .bf16 := k3_pay1 x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by
  dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  simp only [cc3__relu_bias_kernel_eq_skeleton]; unfold cc3__relu_bias_kernel_skel
  exact wp_loads_store ((dat3 V c).before_in_eq_fetched 0 rfl (fun _ => rfl) (fun _ _ _ => rfl) (fun _ => rfl) t)
    ((dat3 V c).before_in_eq_fetched 1 rfl (fun _ => rfl) (fun _ _ _ => rfl) (fun _ => rfl) t)

end Cert.Kernel.Gen
-- ==== Proof.KB.Reg4.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S2000x128 .bf16) (x1 : Vec F S128x128 .f32) : Vec F S2000x128 .bf16 := k4_pay1 x0 x1

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by
  dsimp only [dat4]

theorem body_obligation4 (c : Dev nD) : BodyObligation (dat4 (F := F) V c) (defs₀ (F := F)) Variants.none () Set.univ := fun t => by
  rw [bigSep_W4, bigSep_W4]
  sl_whnfR [defs₀, Defs.onTc]
  simp only [cc4__linear_kernel_eq_skeleton]; unfold cc4__linear_kernel_skel
  exact wp_loads_store ((dat4 V c).before_in_eq_fetched 0 rfl (fun _ => rfl) (fun _ _ _ => rfl) (fun _ => rfl) t)
    ((dat4 V c).before_in_eq_fetched 1 rfl (fun _ => rfl) (fun _ _ _ => rfl) (fun _ => rfl) t)

end Cert.Kernel.Gen
-- ==== Proof.KB.Reg5.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S2000x128 .f32) (x1 : Vec F S1x128 .f32) : Vec F S2000x128 .bf16 := k5_pay1 x0 x1

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by
  dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  simp only [cc5__relu_bias_kernel_eq_skeleton]; unfold cc5__relu_bias_kernel_skel
  exact wp_loads_store ((dat5 V c).before_in_eq_fetched 0 rfl (fun _ => rfl) (fun _ _ _ => rfl) (fun _ => rfl) t)
    ((dat5 V c).before_in_eq_fetched 1 rfl (fun _ => rfl) (fun _ _ _ => rfl) (fun _ => rfl) t)

end Cert.Kernel.Gen
-- ==== Proof.KB.Reg6.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S2000x128 .bf16) (x1 : Vec F S128x128 .f32) : Vec F S2000x128 .bf16 := k6_pay1 x0 x1

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) : (dat6 V c).after 2 t = out6_2 (iblk6 V c 0 t) (iblk6 V c 1 t) := by
  dsimp only [dat6]

theorem body_obligation6 (c : Dev nD) : BodyObligation (dat6 (F := F) V c) (defs₀ (F := F)) Variants.none () Set.univ := fun t => by
  rw [bigSep_W6, bigSep_W6]
  sl_whnfR [defs₀, Defs.onTc]
  simp only [cc6__linear_kernel_eq_skeleton]; unfold cc6__linear_kernel_skel
  exact wp_loads_store ((dat6 V c).before_in_eq_fetched 0 rfl (fun _ => rfl) (fun _ _ _ => rfl) (fun _ => rfl) t)
    ((dat6 V c).before_in_eq_fetched 1 rfl (fun _ => rfl) (fun _ _ _ => rfl) (fun _ => rfl) t)

end Cert.Kernel.Gen
-- ==== Proof.KB.Reg7.lean ====
import proofs.«404363_j60902636257457_1_alg».proof.Proof.KB.Reg0

noncomputable section

namespace Cert.Kernel.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_2 (x0 : Vec F S2000x128 .f32) (x1 : Vec F S1x128 .f32) : Vec F S2000x128 .bf16 := k7_pay1 x0 x1

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_2 (c : Dev nD) (t : Fin cfg7.N) : (dat7 V c).after 2 t = out7_2 (iblk7 V c 0 t) (iblk7 V c 1 t) := by
  dsimp only [dat7]

theorem body_obligation7 (c : Dev nD) : BodyObligation (dat7 (F := F) V c) (defs₀ (F := F)) Variants.none () Set.univ := fun t => by
  rw [bigSep_W7, bigSep_W7]
  sl_whnfR [defs₀, Defs.onTc]
  simp only [cc7__relu_bias_kernel_eq_skeleton]; unfold cc7__relu_bias_kernel_skel
  exact wp_loads_store ((dat7 V c).before_in_eq_fetched 0 rfl (fun _ => rfl) (fun _ _ _ => rfl) (fun _ => rfl) t)
    ((dat7 V c).before_in_eq_fetched 1 rfl (fun _ => rfl) (fun _ _ _ => rfl) (fun _ => rfl) t)

end Cert.Kernel.Gen
-- ==== Proof.KB.Reg8Runs.lean ====
import proofs.«404363_j60902636257457_1_alg».proof.Proof.Gen.Kernel.Launch
import proofs.«404363_j60902636257457_1_alg».proof.Proof.Gen.Kernel.Skeleton
import proofs.«404363_j60902636257457_1_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 49 :=
  (by decide +kernel : ∀ t : Fin grid8.N, cond8_1 (grid8.coords t) ↔ t.val = 49)

abbrev scM8_0 : Memref sig .tc .vmem S64x128 .f32 := Memref.whole cc8_scratch0
abbrev scM8_1 : Memref sig .tc .vmem S64x1 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

/-- The raw contents of a whole memref that read `x` are owned at `x`. -/
theorem owns_unread8 (c : Dev nD) {S : Shape} {e : EltTy} {m : Memref sig .tc .vmem S e} (h : m.IsWhole) {x : S.Idx → Elt F e} :
    (m.view.loc (c : Thread nD τ) ↦[m.view.set]{fullShare} h.unread x : sProp 𝕄)
      ⊢ iprop(∃ f, ⌜m.view.read (Elt F) f = x⌝ ∗ m.view.loc (c : Thread nD τ) ↦[m.view.set]{fullShare} f) := by
  iintro H; iexists _; isplitr; · ipureintro; exact h.read_unread _
  iexact H

theorem hz8 : (![0, 0] : Fin 2 → ℕ) = fun _ => 0 := by funext a; fin_cases a <;> rfl

section
variable (c : Dev nD) (i : grid8.Coords) (arg1 : Memref sig .tc .vmem S2000x128 .bf16) (harg1 : arg1.IsWhole) (arg2 : Memref sig .tc .vmem S2000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S64x10 .f32) (harg5 : arg5.IsWhole) (arg6 : Memref sig .tc .vmem S64x128 .f32) (harg6 : arg6.IsWhole) (arg7 : Memref sig .tc .vmem S64x1 .f32) (harg7 : arg7.IsWhole)

set_option maxHeartbeats 1000000 in
theorem sound_kernel8_A (hc0 : cond8_0 i) (hc1 : ¬cond8_1 i) (x0 : Vec F S2000x128 .bf16) (x1 : Vec F S2000x1 .i32) (x2 : Vec F S128x10 .f32) (x3 : Vec F S1x10 .f32) (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k8_pay4 x1 x0 k8_pay1) ∗ owns (c : Thread nD τ) arg7 fullShare (k8_pay5 x1 k8_pay2)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]; · iapply owns_unread8 c harg5; iexact H4
  isplitl [HS0]
  · iexists _; isplitr; swap; · iexact HS0
    ipureintro; refine (View.read_writes_eq_canon _ _ _ (View.cover_of_tiledL _ S64x128.size (by sl_kernel_rfl))).trans ?_
    sl_unfold_words; rw [View.canon_cons_unit_zero (S := S64x128) hz8]; simp only [View.readAt_eq_ld, harg1.read_unread, harg2.read_unread, View.ld_unit_zero (S := S2000x128) hz8, View.ld_unit_zero (S := S2000x1) hz8,
      View.readCov_unit_zero (S := S64x128) _ hz8]
  iexists _; isplitr; swap; · iexact HS1
  ipureintro; refine (View.read_writes_eq_canon _ _ _ (View.cover_of_tiledL _ S64x1.size (by sl_kernel_rfl))).trans ?_
  sl_unfold_words; rw [View.canon_cons_unit_zero (S := S64x1) hz8]; simp only [View.readAt_eq_ld, harg2.read_unread, View.ld_unit_zero (S := S2000x1) hz8, View.readCov_unit_zero (S := S64x1) _ hz8]

set_option maxHeartbeats 1000000 in
theorem sound_kernel8_B (hc0 : ¬cond8_0 i) (hc1 : ¬cond8_1 i) (x0 : Vec F S2000x128 .bf16) (x1 : Vec F S2000x1 .i32) (x2 : Vec F S128x10 .f32) (x3 : Vec F S1x10 .f32) (xs0 : Vec F S64x128 .f32) (xs1 : Vec F S64x1 .f32) (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k8_pay4 x1 x0 xs0) ∗ owns (c : Thread nD τ) arg7 fullShare (k8_pay5 x1 xs1)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]; · iapply owns_unread8 c harg5; iexact H4
  isplitl [HS0]
  · iexists _; isplitr; swap; · iexact HS0
    ipureintro; refine (View.read_writes_eq_canon _ _ _ (View.cover_of_tiledL _ S64x128.size (by sl_kernel_rfl))).trans ?_
    sl_unfold_words; rw [View.canon_unit_zero (S := S64x128) hz8]; simp only [View.readAt_eq_ld, harg1.read_unread, harg2.read_unread, harg6.read_unread, View.ld_unit_zero (S := S2000x128) hz8,
      View.ld_unit_zero (S := S2000x1) hz8, View.ld_unit_zero (S := S64x128) hz8]
  iexists _; isplitr; swap; · iexact HS1
  ipureintro; refine (View.read_writes_eq_canon _ _ _ (View.cover_of_tiledL _ S64x1.size (by sl_kernel_rfl))).trans ?_
  sl_unfold_words; rw [View.canon_unit_zero (S := S64x1) hz8]; simp only [View.readAt_eq_ld, harg2.read_unread, harg7.read_unread, View.ld_unit_zero (S := S2000x1) hz8, View.ld_unit_zero (S := S64x1) hz8]

set_option maxHeartbeats 1000000 in
theorem sound_kernel8_C (hc0 : ¬cond8_0 i) (hc1 : cond8_1 i) (x0 : Vec F S2000x128 .bf16) (x1 : Vec F S2000x1 .i32) (x2 : Vec F S128x10 .f32) (x3 : Vec F S1x10 .f32) (xs0 : Vec F S64x128 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k8_pay6 (k8_pay4 x1 x0 xs0) (k8_pay5 x1 xs1) x2 x3) ∗ owns (c : Thread nD τ) arg6 fullShare (k8_pay4 x1 x0 xs0) ∗ owns (c : Thread nD τ) arg7 fullShare (k8_pay5 x1 xs1)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]
  · iexists _; isplitr; swap; · iexact H4
    ipureintro; refine (View.read_writes_eq_canon _ _ _ (View.cover_of_tiledL _ S64x10.size (by sl_kernel_rfl))).trans ?_
    sl_unfold_words; rw [View.canon_unit_zero (S := S64x10) hz8]; simp only [View.readAt_eq_ld, harg1.read_unread, harg2.read_unread, harg3.read_unread, harg4.read_unread, harg6.read_unread, harg7.read_unread,
      View.ld_unit_zero (S := S2000x128) hz8, View.ld_unit_zero (S := S2000x1) hz8, View.ld_unit_zero (S := S64x128) hz8, View.ld_unit_zero (S := S64x1) hz8,
      View.ld_unit_zero (S := S128x10) hz8, View.ld_unit_zero (S := S1x10) hz8, View.readCov_unit_zero (S := S64x128) _ hz8,
      View.readCov_unit_zero (S := S64x1) _ hz8]
  isplitl [HS0]
  · iexists _; isplitr; swap; · iexact HS0
    ipureintro; refine (View.read_writes_eq_canon _ _ _ (View.cover_of_tiledL _ S64x128.size (by sl_kernel_rfl))).trans ?_
    sl_unfold_words; rw [View.canon_unit_zero (S := S64x128) hz8]; simp only [View.readAt_eq_ld, harg1.read_unread, harg2.read_unread, harg6.read_unread, View.ld_unit_zero (S := S2000x128) hz8,
      View.ld_unit_zero (S := S2000x1) hz8, View.ld_unit_zero (S := S64x128) hz8]
  iexists _; isplitr; swap; · iexact HS1
  ipureintro; refine (View.read_writes_eq_canon _ _ _ (View.cover_of_tiledL _ S64x1.size (by sl_kernel_rfl))).trans ?_
  sl_unfold_words; rw [View.canon_unit_zero (S := S64x1) hz8]; simp only [View.readAt_eq_ld, harg2.read_unread, harg7.read_unread, View.ld_unit_zero (S := S2000x1) hz8, View.ld_unit_zero (S := S64x1) hz8]

end

end Cert.Kernel.Gen

end
-- ==== Proof.KB.Reg8.lean ====
import proofs.«404363_j60902636257457_1_alg».proof.Proof.KB.Reg8Runs
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S64x128 .f32 × Vec F S64x1 .f32
  | 0, hn => (k8_pay4 (iblk8 V c 1 ⟨0, hn⟩) (iblk8 V c 0 ⟨0, hn⟩) k8_pay1, k8_pay5 (iblk8 V c 1 ⟨0, hn⟩) k8_pay2)
  | n + 1, hn => (k8_pay4 (iblk8 V c 1 ⟨n + 1, hn⟩) (iblk8 V c 0 ⟨n + 1, hn⟩) (acc8 c n (Nat.lt_of_succ_lt hn)).1,
      k8_pay5 (iblk8 V c 1 ⟨n + 1, hn⟩) (acc8 c n (Nat.lt_of_succ_lt hn)).2)

theorem acc8_zero (c : Dev nD) (t : Fin cfg8.N) (h : t.val = 0) :
    acc8 V c t.val t.isLt = (k8_pay4 (iblk8 V c 1 t) (iblk8 V c 0 t) k8_pay1, k8_pay5 (iblk8 V c 1 t) k8_pay2) := by
  obtain ⟨n, hn⟩ := t
  cases n with
  | zero => rfl
  | succ n => exact absurd h (Nat.succ_ne_zero n)

theorem acc8_pos (c : Dev nD) (t : Fin cfg8.N) (h : t.val ≠ 0) :
    acc8 V c t.val t.isLt = (k8_pay4 (iblk8 V c 1 t) (iblk8 V c 0 t) (acc8 V c (t.val - 1) (Nat.lt_of_le_of_lt (Nat.sub_le _ _) t.isLt)).1,
      k8_pay5 (iblk8 V c 1 t) (acc8 V c (t.val - 1) (Nat.lt_of_le_of_lt (Nat.sub_le _ _) t.isLt)).2) := by
  obtain ⟨n, hn⟩ := t
  cases n with
  | zero => exact absurd rfl h
  | succ n => rfl

/-- The invariant between points: the per-graph sums are `a0` and the per-graph counts are `a1`. -/
abbrev carry8 (c : Dev nD) (a0 : Vec F S64x128 .f32) (a1 : Vec F S64x1 .f32) : sProp 𝕄 :=
  iprop(iprop(iprop(owns (c : Thread nD τ) scM8_0 fullShare a0 ∗ owns (c : Thread nD τ) scM8_1 fullShare a1)
      ∗ Pipeline.scopedRestBut spec8 c [cc8_scratch0, cc8_scratch1]) ∗ (∃ r, prngReg c r))

def PhiS8 (c : Dev nD) : (n : ℕ) → n ≤ cfg8.N → sProp 𝕄
  | 0, _ => Pipeline.ΦA spec8 c
  | n + 1, hn => carry8 c (acc8 V c n hn).1 (acc8 V c n hn).2

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) : PhiS8 V c n h = carry8 c (acc8 V c (n - 1) (by omega)).1 (acc8 V c (n - 1) (by omega)).2 := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => k8_pay6 (acc8 V c t.val t.isLt).1 (acc8 V c t.val t.isLt).2 (iblk8 V c 2 t) (iblk8 V c 3 t)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.val_castSucc]

theorem after8_4 (c : Dev nD) (t : Fin cfg8.N) :
    (dat8 V c).after 4 t = k8_pay6 (acc8 V c t.val t.isLt).1 (acc8 V c t.val t.isLt).2 (iblk8 V c 2 t) (iblk8 V c 3 t) := by dsimp only [dat8]

theorem lt49_8 : 49 < cfg8.N := by show 49 < grid8.N; rw [N_8]; omega

theorem before8 (c : Dev nD) (t : Fin cfg8.N) :
    (∀ d, (dat8 V c).before 0 t d = iblk8 V c 0 t)
    ∧ (∀ d, (dat8 V c).before 1 t d = iblk8 V c 1 t)
    ∧ (∀ d, (dat8 V c).before 2 t d = iblk8 V c 2 t)
    ∧ (∀ d, (dat8 V c).before 3 t d = iblk8 V c 3 t) := by
  refine ⟨?_, ?_, ?_, ?_⟩ <;> exact fun d =>
    (Dat.before_in_eq_fetched (dat8 V c) _ rfl (fun _ => rfl) (fun _ _ _ => rfl) (fun _ => rfl) t d).trans rfl

theorem idle8_4_ne : ∀ t : Fin cfg8.N, t.val ≠ 49 → idle8 4 (grid8.coords t) = true := by decide +kernel
theorem flush8_4_ne : ∀ t : Fin cfg8.N, t.val ≠ 49 → (win8 4).flush t = false := by decide +kernel
theorem idle8_4_eq : ∀ t : Fin cfg8.N, t.val = 49 → idle8 4 (grid8.coords t) = false := by decide +kernel

set_option maxHeartbeats 4800000 in
theorem body_obligation8 (c : Dev nD) : BodyObligation (dat8 (F := F) V c) (defs₀ (F := F)) Variants.none () Set.univ := fun t => by
  rw [bigSep_W8, bigSep_W8]
  simp only [(before8 V c t).1, (before8 V c t).2.1, (before8 V c t).2.2.1, (before8 V c t).2.2.2]
  rw [show (dat8 V c).owesAt () t.succ = (dat8 V c).owesAt () t.castSucc from rfl,
    show (dat8 V c).Φ t.succ = carry8 c (acc8 V c t.val t.isLt).1 (acc8 V c t.val t.isLt).2 from rfl,
    show (dat8 V c).after 0 t = iblk8 V c 0 t from rfl, show (dat8 V c).after 1 t = iblk8 V c 1 t from rfl,
    show (dat8 V c).after 2 t = iblk8 V c 2 t from rfl, show (dat8 V c).after 3 t = iblk8 V c 3 t from rfl]
  unfold carry8
  change _ ⊢ wp _ _ _ (bodyAt8 t) _
  unfold bodyAt8
  have hN : t.val < 50 := lt_of_lt_of_eq t.isLt (show cfg8.N = 50 from N_8)
  by_cases h1 : t.val = 49
  · have h0 : t.val ≠ 0 := by omega
    simp only [idle8_4_eq t h1, after8_4]
    rw [acc8_pos V c t h0]; dsimp only
    rw [PhiS8_castSucc V c t, PhiS8_pos V c _ _ h0]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel8_C c (grid8.coords t) _ _ _ _ _ _ _ _ _ _ _ _ _ _ (mt (hcond8_0 t).mp h0) ((hcond8_1 t).mpr h1)
      (iblk8 V c 0 t) (iblk8 V c 1 t) (iblk8 V c 2 t) (iblk8 V c 3 t) _ _ Set.univ _)
    iframe H0 H1 H2 H3 HS0 HS1
    isplitl [H4]; · iexists _; iexact H4
    iintro ⟨H0, H1, H2, H3, H4, HS0, HS1⟩
    iframe HS0 HS1 HR Hg Ho H0 H1 H2 H3
    iexact H4
  · simp only [idle8_4_ne t h1, flush8_4_ne t h1]
    by_cases h0 : t.val = 0
    · rw [acc8_zero V c t h0]; dsimp only
      rw [PhiS8_castSucc V c t, PhiS8_zero V c _ _ h0, PhiA8_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel8_A c (grid8.coords t) _ _ _ _ _ _ _ _ _ _ _ _ _ _ ((hcond8_0 t).mpr h0) (mt (hcond8_1 t).mp h1)
        (iblk8 V c 0 t) (iblk8 V c 1 t) (iblk8 V c 2 t) (iblk8 V c 3 t) _ Set.univ _)
      iframe H0 H1 H2 H3 HS0 HS1
      isplitl [H4]; · iexact H4
      iintro ⟨H0, H1, H2, H3, H4, HS0, HS1⟩
      iframe HS0 HS1 HR Hg Ho H0 H1 H2 H3
      iexists _; iexact H4
    · rw [acc8_pos V c t h0]; dsimp only
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel8_B c (grid8.coords t) _ _ _ _ _ _ _ _ _ _ _ _ _ _ (mt (hcond8_0 t).mp h0) (mt (hcond8_1 t).mp h1)
        (iblk8 V c 0 t) (iblk8 V c 1 t) (iblk8 V c 2 t) (iblk8 V c 3 t) _ _ _ Set.univ _)
      iframe H0 H1 H2 H3 HS0 HS1
      isplitl [H4]; · iexact H4
      iintro ⟨H0, H1, H2, H3, H4, HS0, HS1⟩
      iframe HS0 HS1 HR Hg Ho H0 H1 H2 H3
      iexists _; iexact H4

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- Sums and counts known exactly are in particular sums and counts at some value. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 50 := N_8; omega), PhiA8_eq]
  iintro ⟨⟨⟨HS0, HS1⟩, HR⟩, Hg⟩
  iframe HR Hg
  isplitl [HS0]; · iexists _; iexact HS0
  iexists _; iexact HS1

end Cert.Kernel.Gen

end
-- ==== Proof.KB.Chain.lean ====
import proofs.«404363_j60902636257457_1_alg».proof.Proof.Gen.Kernel.Regions
import proofs.«404363_j60902636257457_1_alg».proof.Proof.Gen.Kernel.Skeleton
import proofs.«404363_j60902636257457_1_alg».proof.Proof.Gen.Kernel.Points
import proofs.«404363_j60902636257457_1_alg».proof.Proof.KB.Reg0
import proofs.«404363_j60902636257457_1_alg».proof.Proof.KB.Reg1
import proofs.«404363_j60902636257457_1_alg».proof.Proof.KB.Reg2
import proofs.«404363_j60902636257457_1_alg».proof.Proof.KB.Reg3
import proofs.«404363_j60902636257457_1_alg».proof.Proof.KB.Reg4
import proofs.«404363_j60902636257457_1_alg».proof.Proof.KB.Reg5
import proofs.«404363_j60902636257457_1_alg».proof.Proof.KB.Reg6
import proofs.«404363_j60902636257457_1_alg».proof.Proof.KB.Reg7
import proofs.«404363_j60902636257457_1_alg».proof.Proof.KB.Reg8
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Replacing the arrays of distinct references, all but one by the contents already there, is an update at that one.
theorem withArrays_eq_update {gr W : Nat} (win : Fin W → Pipeline.WinSpec sig gr) (hinj : Function.Injective (Pipeline.arrRef win))
    (c : Dev nD) (X : Valuation τ sig (Elt F)) (A : (w : Fin W) → Buf (Elt F) ((win w).arr.view.loc (c.tc : Thread nD τ))) (o : Fin W)
    (hin : ∀ w, w ≠ o → A w = X (Proc.devRef .tc (Pipeline.arrRef win w))) :
    Pipeline.withArrays win c X A = Function.update X (Proc.devRef .tc (Pipeline.arrRef win o)) (A o) := by
  funext b
  by_cases hb : b = Proc.devRef .tc (Pipeline.arrRef win o)
  · subst hb; rw [Function.update_self, Pipeline.withArrays_arr win hinj]
  · rw [Function.update_of_ne hb]
    by_cases h : ∃ w, Proc.devRef .tc (Pipeline.arrRef win w) = b
    · obtain ⟨w, rfl⟩ := h
      rw [Pipeline.withArrays_arr win hinj]
      exact hin w (fun e => hb (by rw [e]))
    · unfold Pipeline.withArrays; rw [dif_neg h]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Region

variable (p : Fin 9) (c : Dev nD) (d : Dat τ (Elt F) Unit ℕ (UR sig nD τ) ℕ (cfgs p) c) (X : Valuation τ sig (Elt F))

-- The valuation region p leaves from X: its arrays at their final contents, every other buffer as in X.
def exitVal : Valuation τ sig (Elt F) := Pipeline.withArrays (cfgs p).spec c X fun w => d.arrAt w (cfgs p).N

theorem exitVal_arr (launch : Pipeline.LaunchFacts (nD := nD) (τ := τ) cfgs p) (w : Fin (cfgs p).W) :
    exitVal p c d X (Proc.devRef .tc (Pipeline.arrRef (cfgs p).spec w)) = d.arrAt w (cfgs p).N :=
  Pipeline.withArrays_arr _ launch.win.arr_inj c _ _ w

theorem exitVal_rest (b : Ref sig .tc) (hb : b ∉ Finset.univ.image (Pipeline.arrRef (cfgs p).spec)) :
    exitVal p c d X b = X b :=
  Pipeline.withArrays_of_ne _ c _ _ b fun w e => hb (Finset.mem_image.mpr ⟨w, Finset.mem_univ _, e⟩)

-- An input window's array ends as it began, so a region whose only output window is o changes that one array.
theorem exitVal_upd (launch : Pipeline.LaunchFacts (nD := nD) (τ := τ) cfgs p) (o : Fin (cfgs p).W)
    (hin : ∀ w, w ≠ o → ((cfgs p).win w).isOut = false) (hA : ∀ w, d.A w = X (Pipeline.arrRef (cfgs p).spec w)) :
    exitVal p c d X = Function.update X (Proc.devRef .tc (Pipeline.arrRef (cfgs p).spec o))
      (exitVal p c d X (Proc.devRef .tc (Pipeline.arrRef (cfgs p).spec o))) := by
  rw [exitVal_arr p c d X launch o]
  exact withArrays_eq_update _ launch.win.arr_inj c X _ o fun w hw => (d.arrAt_in w (hin w hw) _).trans (hA w)

end Region

set_option backward.isDefEq.respectTransparency.types false in
-- Region p as a segment carrying the entry valuation of the unscoped buffers to the exit valuation.
def mkReg (pd : (p : Fin 9) → (c : Dev nD) → Dat τ (Elt F) Unit ℕ (UR sig nD τ) ℕ (cfgs p) c) (p : Fin 9)
    (launch : Pipeline.LaunchFacts (nD := nD) (τ := τ) cfgs p) (Xin Xout : Dev nD → Valuation τ sig (Elt F))
    (hX : ∀ c, Xout c = exitVal p c (pd p c) (Xin c))
    (hbody : ∀ c, BodyObligation (pd p c) (defs₀ (F := F)) Variants.none () Set.univ)
    (hq : ∀ c w, (pd p c).q w = fullShare) (howed : ∀ c t, (pd p c).owed t = 0) (hrec : ∀ c t, (pd p c).recorded t = Set.univ)
    (hΦi : ∀ c, Pipeline.ΦA (cfgs p).spec c ⊢ (pd p c).Φ 0)
    (hΦo : ∀ c, (pd p c).Φ (Fin.last (cfgs p).N) ⊢ Pipeline.ΦA (cfgs p).spec c)
    (hA : ∀ c w, (pd p c).A w = Xin c (Pipeline.arrRef (cfgs p).spec w)) :
    Pipeline.RegionSeg (pcfgs (F := F)) adm pd () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xin c) ∗ R c)
  post c := iprop(StableHlo.held (c : Thread nD τ) (Pipeline.ucRefs τ sig) (Xout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Xin c b)
  hentry c := by
    rw [Pipeline.ownSems0_none]
    have hsplit := Pipeline.arrays_of_unscopedBufs (p := p) (pcfgs (F := F)) adm pd launch.win launch.arr_whole c
      ((pd p c).share_full (hq c)) (fun b => Xin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr
      · ipureintro; exact fun _ _ => Or.inl (by rw [hrec c]; exact Set.mem_univ _)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full (hq c))
      (fun b => Xin c b) (fun b => Xout c b) ((pd p c).arrAt · (cfgs p).N)
      (fun w => by rw [hX c]; exact (exitVal_arr p c _ _ launch w).symm)
      (fun b hb => by rw [hX c]; exact exitVal_rest p c _ _ b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

variable (m : (ℓ : Loc nD τ sig) → Buf (Elt F) ℓ)

abbrev X0 (c : Dev nD) : Valuation τ sig (Elt F) := fun b => m (c, b)
abbrev X1 (c : Dev nD) : Valuation τ sig (Elt F) := StableHlo.after hostOps0 (X0 m c)

def X2 (c : Dev nD) : Valuation τ sig (Elt F) := exitVal 0 c (dat0 (fun c b => X1 m c b) c) (X1 m c)
theorem X2_v28 (c : Dev nD) : X2 m c main_v28 = (dat0 (fun c b => X1 m c b) c).arrAt 2 cfg0.N :=
  exitVal_arr 0 c _ _ launch0 (2 : Fin cfg0.W)
theorem X2_upd (c : Dev nD) : X2 m c = Function.update (X1 m c) main_v28 (X2 m c main_v28) :=
  exitVal_upd 0 c _ _ launch0 (2 : Fin cfg0.W) (by decide) (A_eq0 _ c)
abbrev X3 (c : Dev nD) : Valuation τ sig (Elt F) := StableHlo.after hostOps1 (X2 m c)

def X4 (c : Dev nD) : Valuation τ sig (Elt F) := exitVal 1 c (dat1 (fun c b => X3 m c b) c) (X3 m c)
theorem X4_v49 (c : Dev nD) : X4 m c main_v49 = (dat1 (fun c b => X3 m c b) c).arrAt 2 cfg1.N :=
  exitVal_arr 1 c _ _ launch1 (2 : Fin cfg1.W)
theorem X4_upd (c : Dev nD) : X4 m c = Function.update (X3 m c) main_v49 (X4 m c main_v49) :=
  exitVal_upd 1 c _ _ launch1 (2 : Fin cfg1.W) (by decide) (A_eq1 _ c)

def X5 (c : Dev nD) : Valuation τ sig (Elt F) := exitVal 2 c (dat2 (fun c b => X4 m c b) c) (X4 m c)
theorem X5_v50 (c : Dev nD) : X5 m c main_v50 = (dat2 (fun c b => X4 m c b) c).arrAt 2 cfg2.N :=
  exitVal_arr 2 c _ _ launch2 (2 : Fin cfg2.W)
theorem X5_upd (c : Dev nD) : X5 m c = Function.update (X4 m c) main_v50 (X5 m c main_v50) :=
  exitVal_upd 2 c _ _ launch2 (2 : Fin cfg2.W) (by decide) (A_eq2 _ c)
abbrev X6 (c : Dev nD) : Valuation τ sig (Elt F) := StableHlo.after hostOps3 (X5 m c)

def X7 (c : Dev nD) : Valuation τ sig (Elt F) := exitVal 3 c (dat3 (fun c b => X6 m c b) c) (X6 m c)
theorem X7_v71 (c : Dev nD) : X7 m c main_v71 = (dat3 (fun c b => X6 m c b) c).arrAt 2 cfg3.N :=
  exitVal_arr 3 c _ _ launch3 (2 : Fin cfg3.W)
theorem X7_upd (c : Dev nD) : X7 m c = Function.update (X6 m c) main_v71 (X7 m c main_v71) :=
  exitVal_upd 3 c _ _ launch3 (2 : Fin cfg3.W) (by decide) (A_eq3 _ c)

def X8 (c : Dev nD) : Valuation τ sig (Elt F) := exitVal 4 c (dat4 (fun c b => X7 m c b) c) (X7 m c)
theorem X8_v72 (c : Dev nD) : X8 m c main_v72 = (dat4 (fun c b => X7 m c b) c).arrAt 2 cfg4.N :=
  exitVal_arr 4 c _ _ launch4 (2 : Fin cfg4.W)
theorem X8_upd (c : Dev nD) : X8 m c = Function.update (X7 m c) main_v72 (X8 m c main_v72) :=
  exitVal_upd 4 c _ _ launch4 (2 : Fin cfg4.W) (by decide) (A_eq4 _ c)
abbrev X9 (c : Dev nD) : Valuation τ sig (Elt F) := StableHlo.after hostOps5 (X8 m c)

def X10 (c : Dev nD) : Valuation τ sig (Elt F) := exitVal 5 c (dat5 (fun c b => X9 m c b) c) (X9 m c)
theorem X10_v93 (c : Dev nD) : X10 m c main_v93 = (dat5 (fun c b => X9 m c b) c).arrAt 2 cfg5.N :=
  exitVal_arr 5 c _ _ launch5 (2 : Fin cfg5.W)
theorem X10_upd (c : Dev nD) : X10 m c = Function.update (X9 m c) main_v93 (X10 m c main_v93) :=
  exitVal_upd 5 c _ _ launch5 (2 : Fin cfg5.W) (by decide) (A_eq5 _ c)

def X11 (c : Dev nD) : Valuation τ sig (Elt F) := exitVal 6 c (dat6 (fun c b => X10 m c b) c) (X10 m c)
theorem X11_v94 (c : Dev nD) : X11 m c main_v94 = (dat6 (fun c b => X10 m c b) c).arrAt 2 cfg6.N :=
  exitVal_arr 6 c _ _ launch6 (2 : Fin cfg6.W)
theorem X11_upd (c : Dev nD) : X11 m c = Function.update (X10 m c) main_v94 (X11 m c main_v94) :=
  exitVal_upd 6 c _ _ launch6 (2 : Fin cfg6.W) (by decide) (A_eq6 _ c)
abbrev X12 (c : Dev nD) : Valuation τ sig (Elt F) := StableHlo.after hostOps7 (X11 m c)

def X13 (c : Dev nD) : Valuation τ sig (Elt F) := exitVal 7 c (dat7 (fun c b => X12 m c b) c) (X12 m c)
theorem X13_v115 (c : Dev nD) : X13 m c main_v115 = (dat7 (fun c b => X12 m c b) c).arrAt 2 cfg7.N :=
  exitVal_arr 7 c _ _ launch7 (2 : Fin cfg7.W)
theorem X13_upd (c : Dev nD) : X13 m c = Function.update (X12 m c) main_v115 (X13 m c main_v115) :=
  exitVal_upd 7 c _ _ launch7 (2 : Fin cfg7.W) (by decide) (A_eq7 _ c)
abbrev X14 (c : Dev nD) : Valuation τ sig (Elt F) := StableHlo.after hostOps8 (X13 m c)

def X15 (c : Dev nD) : Valuation τ sig (Elt F) := exitVal 8 c (dat8 (fun c b => X14 m c b) c) (X14 m c)
theorem X15_v118 (c : Dev nD) : X15 m c main_v118 = (dat8 (fun c b => X14 m c b) c).arrAt 4 cfg8.N :=
  exitVal_arr 8 c _ _ launch8 (4 : Fin cfg8.W)
theorem X15_upd (c : Dev nD) : X15 m c = Function.update (X14 m c) main_v118 (X15 m c main_v118) :=
  exitVal_upd 8 c _ _ launch8 (4 : Fin cfg8.W) (by decide) (A_eq8 _ c)

def outs : Outs (F := F) := fun J r c => match J with
  | 2 => X2 m c r
  | 4 => X4 m c r
  | 5 => X5 m c r
  | 7 => X7 m c r
  | 8 => X8 m c r
  | 10 => X10 m c r
  | 11 => X11 m c r
  | 13 => X13 m c r
  | 15 => X15 m c r
  | _ => X0 m c r

theorem V1_eq (c : Dev nD) : V1 m c = X1 m c := rfl
theorem V2_eq (c : Dev nD) : V2 m (outs m) c = X2 m c := by
  show Function.update (V1 m c) main_v28 (X2 m c main_v28) = X2 m c
  rw [V1_eq]; exact (X2_upd m c).symm
theorem V3_eq (c : Dev nD) : V3 m (outs m) c = X3 m c := by
  show StableHlo.after hostOps1 (V2 m (outs m) c) = StableHlo.after hostOps1 (X2 m c)
  rw [V2_eq]
theorem V4_eq (c : Dev nD) : V4 m (outs m) c = X4 m c := by
  show Function.update (V3 m (outs m) c) main_v49 (X4 m c main_v49) = X4 m c
  rw [V3_eq]; exact (X4_upd m c).symm
theorem V5_eq (c : Dev nD) : V5 m (outs m) c = X5 m c := by
  show Function.update (V4 m (outs m) c) main_v50 (X5 m c main_v50) = X5 m c
  rw [V4_eq]; exact (X5_upd m c).symm
theorem V6_eq (c : Dev nD) : V6 m (outs m) c = X6 m c := by
  show StableHlo.after hostOps3 (V5 m (outs m) c) = StableHlo.after hostOps3 (X5 m c)
  rw [V5_eq]
theorem V7_eq (c : Dev nD) : V7 m (outs m) c = X7 m c := by
  show Function.update (V6 m (outs m) c) main_v71 (X7 m c main_v71) = X7 m c
  rw [V6_eq]; exact (X7_upd m c).symm
theorem V8_eq (c : Dev nD) : V8 m (outs m) c = X8 m c := by
  show Function.update (V7 m (outs m) c) main_v72 (X8 m c main_v72) = X8 m c
  rw [V7_eq]; exact (X8_upd m c).symm
theorem V9_eq (c : Dev nD) : V9 m (outs m) c = X9 m c := by
  show StableHlo.after hostOps5 (V8 m (outs m) c) = StableHlo.after hostOps5 (X8 m c)
  rw [V8_eq]
theorem V10_eq (c : Dev nD) : V10 m (outs m) c = X10 m c := by
  show Function.update (V9 m (outs m) c) main_v93 (X10 m c main_v93) = X10 m c
  rw [V9_eq]; exact (X10_upd m c).symm
theorem V11_eq (c : Dev nD) : V11 m (outs m) c = X11 m c := by
  show Function.update (V10 m (outs m) c) main_v94 (X11 m c main_v94) = X11 m c
  rw [V10_eq]; exact (X11_upd m c).symm
theorem V12_eq (c : Dev nD) : V12 m (outs m) c = X12 m c := by
  show StableHlo.after hostOps7 (V11 m (outs m) c) = StableHlo.after hostOps7 (X11 m c)
  rw [V11_eq]
theorem V13_eq (c : Dev nD) : V13 m (outs m) c = X13 m c := by
  show Function.update (V12 m (outs m) c) main_v115 (X13 m c main_v115) = X13 m c
  rw [V12_eq]; exact (X13_upd m c).symm
theorem V14_eq (c : Dev nD) : V14 m (outs m) c = X14 m c := by
  show StableHlo.after hostOps8 (V13 m (outs m) c) = StableHlo.after hostOps8 (X13 m c)
  rw [V13_eq]
theorem V15_eq (c : Dev nD) : V15 m (outs m) c = X15 m c := by
  show Function.update (V14 m (outs m) c) main_v118 (X15 m c main_v118) = X15 m c
  rw [V14_eq]; exact (X15_upd m c).symm

def pdats : (p : Fin 9) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X4 m c b) c
  | ⟨3, _⟩ => fun c => dat3 (fun c b => X6 m c b) c
  | ⟨4, _⟩ => fun c => dat4 (fun c b => X7 m c b) c
  | ⟨5, _⟩ => fun c => dat5 (fun c b => X9 m c b) c
  | ⟨6, _⟩ => fun c => dat6 (fun c b => X10 m c b) c
  | ⟨7, _⟩ => fun c => dat7 (fun c b => X12 m c b) c
  | ⟨8, _⟩ => fun c => dat8 (fun c b => X14 m c b) c

set_option backward.isDefEq.respectTransparency.types false in
def reg0 : Pipeline.RegionSeg (pcfgs (F := F)) adm (pdats m) () defs₀ Variants.none L lv 0 :=
  mkReg (pdats m) 0 launch0 (X1 m) (X2 m) (fun _ => rfl) (fun c => body_obligation0 (fun c b => X1 m c b) c)
    (fun _ _ => rfl) (fun _ _ => rfl) (fun _ _ => rfl) (fun _ => .rfl) (fun _ => .rfl) (fun c => A_eq0 (fun c b => X1 m c b) c)

set_option backward.isDefEq.respectTransparency.types false in
def reg1 : Pipeline.RegionSeg (pcfgs (F := F)) adm (pdats m) () defs₀ Variants.none L lv 1 :=
  mkReg (pdats m) 1 launch1 (X3 m) (X4 m) (fun _ => rfl) (fun c => body_obligation1 (fun c b => X3 m c b) c)
    (fun _ _ => rfl) (fun _ _ => rfl) (fun _ _ => rfl) (fun _ => .rfl) (fun _ => .rfl) (fun c => A_eq1 (fun c b => X3 m c b) c)

set_option backward.isDefEq.respectTransparency.types false in
def reg2 : Pipeline.RegionSeg (pcfgs (F := F)) adm (pdats m) () defs₀ Variants.none L lv 2 :=
  mkReg (pdats m) 2 launch2 (X4 m) (X5 m) (fun _ => rfl) (fun c => body_obligation2 (fun c b => X4 m c b) c)
    (fun _ _ => rfl) (fun _ _ => rfl) (fun _ _ => rfl) (fun _ => .rfl) (fun _ => .rfl) (fun c => A_eq2 (fun c b => X4 m c b) c)

set_option backward.isDefEq.respectTransparency.types false in
def reg3 : Pipeline.RegionSeg (pcfgs (F := F)) adm (pdats m) () defs₀ Variants.none L lv 3 :=
  mkReg (pdats m) 3 launch3 (X6 m) (X7 m) (fun _ => rfl) (fun c => body_obligation3 (fun c b => X6 m c b) c)
    (fun _ _ => rfl) (fun _ _ => rfl) (fun _ _ => rfl) (fun _ => .rfl) (fun _ => .rfl) (fun c => A_eq3 (fun c b => X6 m c b) c)

set_option backward.isDefEq.respectTransparency.types false in
def reg4 : Pipeline.RegionSeg (pcfgs (F := F)) adm (pdats m) () defs₀ Variants.none L lv 4 :=
  mkReg (pdats m) 4 launch4 (X7 m) (X8 m) (fun _ => rfl) (fun c => body_obligation4 (fun c b => X7 m c b) c)
    (fun _ _ => rfl) (fun _ _ => rfl) (fun _ _ => rfl) (fun _ => .rfl) (fun _ => .rfl) (fun c => A_eq4 (fun c b => X7 m c b) c)

set_option backward.isDefEq.respectTransparency.types false in
def reg5 : Pipeline.RegionSeg (pcfgs (F := F)) adm (pdats m) () defs₀ Variants.none L lv 5 :=
  mkReg (pdats m) 5 launch5 (X9 m) (X10 m) (fun _ => rfl) (fun c => body_obligation5 (fun c b => X9 m c b) c)
    (fun _ _ => rfl) (fun _ _ => rfl) (fun _ _ => rfl) (fun _ => .rfl) (fun _ => .rfl) (fun c => A_eq5 (fun c b => X9 m c b) c)

set_option backward.isDefEq.respectTransparency.types false in
def reg6 : Pipeline.RegionSeg (pcfgs (F := F)) adm (pdats m) () defs₀ Variants.none L lv 6 :=
  mkReg (pdats m) 6 launch6 (X10 m) (X11 m) (fun _ => rfl) (fun c => body_obligation6 (fun c b => X10 m c b) c)
    (fun _ _ => rfl) (fun _ _ => rfl) (fun _ _ => rfl) (fun _ => .rfl) (fun _ => .rfl) (fun c => A_eq6 (fun c b => X10 m c b) c)

set_option backward.isDefEq.respectTransparency.types false in
def reg7 : Pipeline.RegionSeg (pcfgs (F := F)) adm (pdats m) () defs₀ Variants.none L lv 7 :=
  mkReg (pdats m) 7 launch7 (X12 m) (X13 m) (fun _ => rfl) (fun c => body_obligation7 (fun c b => X12 m c b) c)
    (fun _ _ => rfl) (fun _ _ => rfl) (fun _ _ => rfl) (fun _ => .rfl) (fun _ => .rfl) (fun c => A_eq7 (fun c b => X12 m c b) c)

set_option backward.isDefEq.respectTransparency.types false in
def reg8 : Pipeline.RegionSeg (pcfgs (F := F)) adm (pdats m) () defs₀ Variants.none L lv 8 :=
  mkReg (pdats m) 8 launch8 (X14 m) (X15 m) (fun _ => rfl) (fun c => body_obligation8 (fun c b => X14 m c b) c)
    (fun _ _ => rfl) (fun _ _ => rfl) (fun _ _ => rfl) (fun c => hin8 (fun c b => X14 m c b) c) (fun c => hout8 (fun c b => X14 m c b) c) (fun c => A_eq8 (fun c b => X14 m c b) c)

end Cert.Kernel.Gen

end
-- ==== Proof.KB.Run.lean ====
import proofs.«404363_j60902636257457_1_alg».proof.Proof.KB.Chain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X R

-- @main as its fifteen items in order: six host stretches and nine kernel regions, each entered at the chain's valuation there.
abbrev items : List (Pipeline.Seg (pcfgs (F := F)) adm (pdats m) () defs₀ Variants.none L lv) :=
  [ .host (hseg hostOps0 hostOps0_sub hostOps0_fresh (X0 m)),
    .region (reg0 m),
    .host (hseg hostOps1 hostOps1_sub hostOps1_fresh (X2 m)),
    .region (reg1 m),
    .region (reg2 m),
    .host (hseg hostOps3 hostOps3_sub hostOps3_fresh (X5 m)),
    .region (reg3 m),
    .region (reg4 m),
    .host (hseg hostOps5 hostOps5_sub hostOps5_fresh (X8 m)),
    .region (reg5 m),
    .region (reg6 m),
    .host (hseg hostOps7 hostOps7_sub hostOps7_fresh (X11 m)),
    .region (reg7 m),
    .host (hseg hostOps8 hostOps8_sub hostOps8_fresh (X13 m)),
    .region (reg8 m) ]

theorem main_run (c : Dev nD) : main (F := F) c = Pipeline.Seg.run (items m) := by
  rw [main_chain c, Pipeline.Seg.run_eq_chain]; rfl

abbrev Tₙ (c : Dev nD) : sProp 𝕄 := iprop(StableHlo.held (c : Thread nD τ) (Pipeline.ucRefs τ sig) (X15 m c) ∗ ∃ r, prngReg c r)

-- Each item carries one valuation of the unscoped buffers to the next, so every fair execution ends with them at the last one.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = X15 m c b) :=
  Pipeline.θ_run_regions_kit (pcfgs (F := F)) adm (pdats m) () cellOf_inj emb₁ defs₀ Variants.none L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (X15 m c) ∗ (∃ r, prngReg c r)
            ∗ ∃ W, owes (c : Thread nD τ) (0 : CellTallies nD τ sig Unit) W)
          ⊢ iprop((StableHlo.held (c : Thread nD τ) (Pipeline.ucRefs τ sig) (X15 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = X15 m c b)
    (hfin := fun c s' => by
      iintro ⟨⟨Hh, -⟩, HSI⟩
      unfold StableHlo.held
      imodintro
      iapply (pointsTo_read_all (Pipeline.ucRefs τ sig) (fun b => ((c : Thread nD τ).1, b)) (X15 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- The last valuation is the conditional frame's, so a buffer that frame leaves at its launch contents ends there.
theorem X15_launch (c : Dev nD) (b : Ref sig .tc) (h : V15 m (outs m) c b = m ((c : Thread nD τ).loc b)) :
    X15 m c b = m ((c : Thread nD τ).loc b) := by
  rw [← V15_eq m c]; exact h

-- No item writes an argument array.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨(h c _ (mem_uc main_arg0 (by decide))).trans (X15_launch m c _ (V15_main_arg0 m (outs m) c)),
     (h c _ (mem_uc main_arg1 (by decide))).trans (X15_launch m c _ (V15_main_arg1 m (outs m) c)),
     (h c _ (mem_uc main_arg2 (by decide))).trans (X15_launch m c _ (V15_main_arg2 m (outs m) c)),
     (h c _ (mem_uc main_arg3 (by decide))).trans (X15_launch m c _ (V15_main_arg3 m (outs m) c)),
     (h c _ (mem_uc main_arg4 (by decide))).trans (X15_launch m c _ (V15_main_arg4 m (outs m) c)),
     (h c _ (mem_uc main_arg5 (by decide))).trans (X15_launch m c _ (V15_main_arg5 m (outs m) c)),
     (h c _ (mem_uc main_arg6 (by decide))).trans (X15_launch m c _ (V15_main_arg6 m (outs m) c)),
     (h c _ (mem_uc main_arg7 (by decide))).trans (X15_launch m c _ (V15_main_arg7 m (outs m) c)),
     (h c _ (mem_uc main_arg8 (by decide))).trans (X15_launch m c _ (V15_main_arg8 m (outs m) c))⟩) (run_all m ρ)

end Cert.Kernel.Gen

end
-- ==== Proof.KI.Reg0.lean ====
import proofs.«404363_j60902636257457_1_alg».proof.Proof.Gen.KernelIdeal.Launch
import proofs.«404363_j60902636257457_1_alg».proof.Proof.Gen.KernelIdeal.Skeleton
import proofs.«404363_j60902636257457_1_alg».proof.Proof.Gen.KernelIdeal.Points
import Idealize.ShloMosaic.Lib.Pipeline.FrameBody
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev wholeTile : Rect S2000x128 := Rect.unit (s := S2000x128) ![0, 0] S2000x128.size inb_S2000x128_S2000x128_0_0

theorem zero2 : (![0, 0] : Fin 2 → Nat) = fun _ => 0 := by funext a; fin_cases a <;> rfl

-- Two whole-buffer loads and one store over the whole output leave the payload of what was read; the rest is framed.
set_option maxHeartbeats 1000000 in
theorem wp_loads_store {e0 e1 : EltTy} {d1 : Fin 2 → Nat} {D0 D1 D2 : Type} {c : Dev nD} {E : Set ℕ} {P Q : sProp 𝕄}
    {a0 : Memref sig .tc .vmem S2000x128 e0} {a1 : Memref sig .tc .vmem ⟨2, d1⟩ e1} {a2 : Memref sig .tc .vmem S2000x128 .bf16}
    {i1 : ∀ a, (![0, 0] : Fin 2 → Nat) a + d1 a ≤ d1 a}
    {l0 : a0.view.LoadsAt wholeTile.toLoadRect} {l1 : a1.view.LoadsAt (Rect.unit (s := ⟨2, d1⟩) ![0, 0] d1 i1).toLoadRect}
    {l2 : a2.view.LoadsAt wholeTile.toLoadRect} {hs : (a2.access wholeTile).Stores Finset.univ}
    {pay : Vec F S2000x128 e0 → Vec F ⟨2, d1⟩ e1 → Vec F S2000x128 .bf16}
    {b0 : D0 → Vec F S2000x128 e0} {b1 : D1 → Vec F ⟨2, d1⟩ e1} {b2 : D2 → Vec F S2000x128 .bf16}
    {x0 : Vec F S2000x128 e0} {x1 : Vec F ⟨2, d1⟩ e1} (h0 : ∀ d, b0 d = x0) (h1 : ∀ d, b1 d = x1) :
    iprop(P ∗ Q ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E
          (do let v0 ← Prog.lift (.load a0 wholeTile.toLoadRect l0)
              let v2 ← Prog.lift (.load a1 (Rect.unit (s := ⟨2, d1⟩) ![0, 0] d1 i1).toLoadRect l1)
              let _ ← Prog.lift (.load a2 wholeTile.toLoadRect l2)
              Prog.lift (.store a2 wholeTile (pay v0 v2) Finset.univ hs (.inl rfl))
              pure ⟨⟩ : Prog (TpuEff nD τ sig (Elt F) Λ₀ .tc) PUnit)
          (fun _ => iprop(P ∗ Q ∗ owns (c : Thread nD τ) a0 fullShare x0 ∗ owns (c : Thread nD τ) a1 fullShare x1
            ∗ owns (c : Thread nD τ) a2 fullShare (pay x0 x1))) := by
  simp only [h0, h1]
  unfold owns
  iintro ⟨HP, HQ, ⟨%_, %f0, %hf0, H0⟩, ⟨%_, %f1, %hf1, H1⟩, ⟨%d2, %f2, -, H2⟩⟩
  subst hf0; subst hf1
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero2 inb_S2000x128_S2000x128_0_0 y⟩),
    View.canon_unit_zero zero2]
  show pay (View.ld _ wholeTile) (View.ld _ (Rect.unit (s := ⟨2, d1⟩) ![0, 0] d1 i1)) = _
  rw [View.ld_unit_zero zero2, View.ld_unit_zero zero2]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S2000x128 .f32) (x1 : Vec F S128x128 .f32) : Vec F S2000x128 .bf16 := k0_pay1 x0 x1

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by
  dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  simp only [cc0__linear_kernel_eq_skeleton]; unfold cc0__linear_kernel_skel
  exact wp_loads_store ((dat0 V c).before_in_eq_fetched 0 rfl (fun _ => rfl) (fun _ _ _ => rfl) (fun _ => rfl) t)
    ((dat0 V c).before_in_eq_fetched 1 rfl (fun _ => rfl) (fun _ _ _ => rfl) (fun _ => rfl) t)

end Cert.KernelIdeal.Gen
-- ==== Proof.KI.Reg1.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S2000x128 .f32) (x1 : Vec F S1x128 .f32) : Vec F S2000x128 .bf16 := k1_pay1 x0 x1

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by
  dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  simp only [cc1__relu_bias_kernel_eq_skeleton]; unfold cc1__relu_bias_kernel_skel
  exact wp_loads_store ((dat1 V c).before_in_eq_fetched 0 rfl (fun _ => rfl) (fun _ _ _ => rfl) (fun _ => rfl) t)
    ((dat1 V c).before_in_eq_fetched 1 rfl (fun _ => rfl) (fun _ _ _ => rfl) (fun _ => rfl) t)

end Cert.KernelIdeal.Gen
-- ==== Proof.KI.Reg2.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S2000x128 .bf16) (x1 : Vec F S128x128 .f32) : Vec F S2000x128 .bf16 := k2_pay1 x0 x1

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by
  dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  simp only [cc2__linear_kernel_eq_skeleton]; unfold cc2__linear_kernel_skel
  exact wp_loads_store ((dat2 V c).before_in_eq_fetched 0 rfl (fun _ => rfl) (fun _ _ _ => rfl) (fun _ => rfl) t)
    ((dat2 V c).before_in_eq_fetched 1 rfl (fun _ => rfl) (fun _ _ _ => rfl) (fun _ => rfl) t)

end Cert.KernelIdeal.Gen
-- ==== Proof.KI.Reg3.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S2000x128 .f32) (x1 : Vec F S1x128 .f32) : Vec F S2000x128 .bf16 := k3_pay1 x0 x1

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by
  dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  simp only [cc3__relu_bias_kernel_eq_skeleton]; unfold cc3__relu_bias_kernel_skel
  exact wp_loads_store ((dat3 V c).before_in_eq_fetched 0 rfl (fun _ => rfl) (fun _ _ _ => rfl) (fun _ => rfl) t)
    ((dat3 V c).before_in_eq_fetched 1 rfl (fun _ => rfl) (fun _ _ _ => rfl) (fun _ => rfl) t)

end Cert.KernelIdeal.Gen
-- ==== Proof.KI.Reg4.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S2000x128 .bf16) (x1 : Vec F S128x128 .f32) : Vec F S2000x128 .bf16 := k4_pay1 x0 x1

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by
  dsimp only [dat4]

theorem body_obligation4 (c : Dev nD) : BodyObligation (dat4 (F := F) V c) (defs₀ (F := F)) Variants.none () Set.univ := fun t => by
  rw [bigSep_W4, bigSep_W4]
  sl_whnfR [defs₀, Defs.onTc]
  simp only [cc4__linear_kernel_eq_skeleton]; unfold cc4__linear_kernel_skel
  exact wp_loads_store ((dat4 V c).before_in_eq_fetched 0 rfl (fun _ => rfl) (fun _ _ _ => rfl) (fun _ => rfl) t)
    ((dat4 V c).before_in_eq_fetched 1 rfl (fun _ => rfl) (fun _ _ _ => rfl) (fun _ => rfl) t)

end Cert.KernelIdeal.Gen
-- ==== Proof.KI.Reg5.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S2000x128 .f32) (x1 : Vec F S1x128 .f32) : Vec F S2000x128 .bf16 := k5_pay1 x0 x1

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by
  dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  simp only [cc5__relu_bias_kernel_eq_skeleton]; unfold cc5__relu_bias_kernel_skel
  exact wp_loads_store ((dat5 V c).before_in_eq_fetched 0 rfl (fun _ => rfl) (fun _ _ _ => rfl) (fun _ => rfl) t)
    ((dat5 V c).before_in_eq_fetched 1 rfl (fun _ => rfl) (fun _ _ _ => rfl) (fun _ => rfl) t)

end Cert.KernelIdeal.Gen
-- ==== Proof.KI.Reg6.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_2 (x0 : Vec F S2000x128 .bf16) (x1 : Vec F S128x128 .f32) : Vec F S2000x128 .bf16 := k6_pay1 x0 x1

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_2 (c : Dev nD) (t : Fin cfg6.N) : (dat6 V c).after 2 t = out6_2 (iblk6 V c 0 t) (iblk6 V c 1 t) := by
  dsimp only [dat6]

theorem body_obligation6 (c : Dev nD) : BodyObligation (dat6 (F := F) V c) (defs₀ (F := F)) Variants.none () Set.univ := fun t => by
  rw [bigSep_W6, bigSep_W6]
  sl_whnfR [defs₀, Defs.onTc]
  simp only [cc6__linear_kernel_eq_skeleton]; unfold cc6__linear_kernel_skel
  exact wp_loads_store ((dat6 V c).before_in_eq_fetched 0 rfl (fun _ => rfl) (fun _ _ _ => rfl) (fun _ => rfl) t)
    ((dat6 V c).before_in_eq_fetched 1 rfl (fun _ => rfl) (fun _ _ _ => rfl) (fun _ => rfl) t)

end Cert.KernelIdeal.Gen
-- ==== Proof.KI.Reg7.lean ====
import proofs.«404363_j60902636257457_1_alg».proof.Proof.KI.Reg0

noncomputable section

namespace Cert.KernelIdeal.Gen

open Idealize.ShloMosaic Idealize.ShloMosaic.TcCoe Idealize.SL Idealize.SL.RA Idealize.SL.Sem
open Idealize.ShloMosaic.Pipeline (Dat BodyObligation)

variable {F : FTy → Type} [FloatOps F]

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def out7_2 (x0 : Vec F S2000x128 .f32) (x1 : Vec F S1x128 .f32) : Vec F S2000x128 .bf16 := k7_pay1 x0 x1

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_2 (c : Dev nD) (t : Fin cfg7.N) : (dat7 V c).after 2 t = out7_2 (iblk7 V c 0 t) (iblk7 V c 1 t) := by
  dsimp only [dat7]

theorem body_obligation7 (c : Dev nD) : BodyObligation (dat7 (F := F) V c) (defs₀ (F := F)) Variants.none () Set.univ := fun t => by
  rw [bigSep_W7, bigSep_W7]
  sl_whnfR [defs₀, Defs.onTc]
  simp only [cc7__relu_bias_kernel_eq_skeleton]; unfold cc7__relu_bias_kernel_skel
  exact wp_loads_store ((dat7 V c).before_in_eq_fetched 0 rfl (fun _ => rfl) (fun _ _ _ => rfl) (fun _ => rfl) t)
    ((dat7 V c).before_in_eq_fetched 1 rfl (fun _ => rfl) (fun _ _ _ => rfl) (fun _ => rfl) t)

end Cert.KernelIdeal.Gen
-- ==== Proof.KI.Reg8Runs.lean ====
import proofs.«404363_j60902636257457_1_alg».proof.Proof.Gen.KernelIdeal.Launch
import proofs.«404363_j60902636257457_1_alg».proof.Proof.Gen.KernelIdeal.Skeleton
import proofs.«404363_j60902636257457_1_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond8_0 (i : grid8.Coords) : Prop := (Scalar.cmpi .ne (Scalar.extui (Scalar.cmpi .eq (BitVec.ofNat 32 (i 0).val) 0#32)) 0#32) = 1#1
theorem hcond8_0 : ∀ t : Fin cfg8.N, cond8_0 (grid8.coords t) ↔ t.val = 0 :=
  (by decide +kernel : ∀ t : Fin grid8.N, cond8_0 (grid8.coords t) ↔ t.val = 0)

abbrev cond8_1 (i : grid8.Coords) : Prop := k8_cond2 i = 1#1
theorem hcond8_1 : ∀ t : Fin cfg8.N, cond8_1 (grid8.coords t) ↔ t.val = 49 :=
  (by decide +kernel : ∀ t : Fin grid8.N, cond8_1 (grid8.coords t) ↔ t.val = 49)

abbrev scM8_0 : Memref sig .tc .vmem S64x128 .f32 := Memref.whole cc8_scratch0
abbrev scM8_1 : Memref sig .tc .vmem S64x1 .f32 := Memref.whole cc8_scratch1

theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut spec8 c [cc8_scratch0, cc8_scratch1]) ∗ (∃ r, prngReg c r)) := by
  unfold Pipeline.ΦA; rw [scopedRest8_split]; simp only [scM8_0, scM8_1, owns_whole]; try rfl

/-- The raw contents of a whole memref that read `x` are owned at `x`. -/
theorem owns_unread8 (c : Dev nD) {S : Shape} {e : EltTy} {m : Memref sig .tc .vmem S e} (h : m.IsWhole) {x : S.Idx → Elt F e} :
    (m.view.loc (c : Thread nD τ) ↦[m.view.set]{fullShare} h.unread x : sProp 𝕄)
      ⊢ iprop(∃ f, ⌜m.view.read (Elt F) f = x⌝ ∗ m.view.loc (c : Thread nD τ) ↦[m.view.set]{fullShare} f) := by
  iintro H; iexists _; isplitr; · ipureintro; exact h.read_unread _
  iexact H

theorem hz8 : (![0, 0] : Fin 2 → ℕ) = fun _ => 0 := by funext a; fin_cases a <;> rfl

section
variable (c : Dev nD) (i : grid8.Coords) (arg1 : Memref sig .tc .vmem S2000x128 .bf16) (harg1 : arg1.IsWhole) (arg2 : Memref sig .tc .vmem S2000x1 .i32) (harg2 : arg2.IsWhole) (arg3 : Memref sig .tc .vmem S128x10 .f32) (harg3 : arg3.IsWhole) (arg4 : Memref sig .tc .vmem S1x10 .f32) (harg4 : arg4.IsWhole) (arg5 : Memref sig .tc .vmem S64x10 .f32) (harg5 : arg5.IsWhole) (arg6 : Memref sig .tc .vmem S64x128 .f32) (harg6 : arg6.IsWhole) (arg7 : Memref sig .tc .vmem S64x1 .f32) (harg7 : arg7.IsWhole)

set_option maxHeartbeats 1000000 in
theorem sound_kernel8_A (hc0 : cond8_0 i) (hc1 : ¬cond8_1 i) (x0 : Vec F S2000x128 .bf16) (x1 : Vec F S2000x1 .i32) (x2 : Vec F S128x10 .f32) (x3 : Vec F S1x10 .f32) (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k8_pay4 x1 x0 k8_pay1) ∗ owns (c : Thread nD τ) arg7 fullShare (k8_pay5 x1 k8_pay2)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]; · iapply owns_unread8 c harg5; iexact H4
  isplitl [HS0]
  · iexists _; isplitr; swap; · iexact HS0
    ipureintro; refine (View.read_writes_eq_canon _ _ _ (View.cover_of_tiledL _ S64x128.size (by sl_kernel_rfl))).trans ?_
    sl_unfold_words; rw [View.canon_cons_unit_zero (S := S64x128) hz8]; simp only [View.readAt_eq_ld, harg1.read_unread, harg2.read_unread, View.ld_unit_zero (S := S2000x128) hz8, View.ld_unit_zero (S := S2000x1) hz8,
      View.readCov_unit_zero (S := S64x128) _ hz8]
  iexists _; isplitr; swap; · iexact HS1
  ipureintro; refine (View.read_writes_eq_canon _ _ _ (View.cover_of_tiledL _ S64x1.size (by sl_kernel_rfl))).trans ?_
  sl_unfold_words; rw [View.canon_cons_unit_zero (S := S64x1) hz8]; simp only [View.readAt_eq_ld, harg2.read_unread, View.ld_unit_zero (S := S2000x1) hz8, View.readCov_unit_zero (S := S64x1) _ hz8]

set_option maxHeartbeats 1000000 in
theorem sound_kernel8_B (hc0 : ¬cond8_0 i) (hc1 : ¬cond8_1 i) (x0 : Vec F S2000x128 .bf16) (x1 : Vec F S2000x1 .i32) (x2 : Vec F S128x10 .f32) (x3 : Vec F S1x10 .f32) (xs0 : Vec F S64x128 .f32) (xs1 : Vec F S64x1 .f32) (xi4 : Vec F S64x10 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare (k8_pay4 x1 x0 xs0) ∗ owns (c : Thread nD τ) arg7 fullShare (k8_pay5 x1 xs1)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hfs0; obtain rfl := harg7.eq_unread hfs1
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]; · iapply owns_unread8 c harg5; iexact H4
  isplitl [HS0]
  · iexists _; isplitr; swap; · iexact HS0
    ipureintro; refine (View.read_writes_eq_canon _ _ _ (View.cover_of_tiledL _ S64x128.size (by sl_kernel_rfl))).trans ?_
    sl_unfold_words; rw [View.canon_unit_zero (S := S64x128) hz8]; simp only [View.readAt_eq_ld, harg1.read_unread, harg2.read_unread, harg6.read_unread, View.ld_unit_zero (S := S2000x128) hz8,
      View.ld_unit_zero (S := S2000x1) hz8, View.ld_unit_zero (S := S64x128) hz8]
  iexists _; isplitr; swap; · iexact HS1
  ipureintro; refine (View.read_writes_eq_canon _ _ _ (View.cover_of_tiledL _ S64x1.size (by sl_kernel_rfl))).trans ?_
  sl_unfold_words; rw [View.canon_unit_zero (S := S64x1) hz8]; simp only [View.readAt_eq_ld, harg2.read_unread, harg7.read_unread, View.ld_unit_zero (S := S2000x1) hz8, View.ld_unit_zero (S := S64x1) hz8]

set_option maxHeartbeats 1000000 in
theorem sound_kernel8_C (hc0 : ¬cond8_0 i) (hc1 : cond8_1 i) (x0 : Vec F S2000x128 .bf16) (x1 : Vec F S2000x1 .i32) (x2 : Vec F S128x10 .f32) (x3 : Vec F S1x10 .f32) (xs0 : Vec F S64x128 .f32) (xs1 : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0 ∗ owns (c : Thread nD τ) arg7 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k8_pay6 (k8_pay4 x1 x0 xs0) (k8_pay5 x1 xs1) x2 x3) ∗ owns (c : Thread nD τ) arg6 fullShare (k8_pay4 x1 x0 xs0) ∗ owns (c : Thread nD τ) arg7 fullShare (k8_pay5 x1 xs1)) -∗ K ⟨⟩))
      ⊢ wp frame (wpE (defs₀ (F := F)) Variants.none c none) E (cc8__pool_kernel i arg1 harg1 arg2 harg2 arg3 harg3 arg4 harg4 arg5 harg5 arg6 harg6 arg7 harg7) K := by
  simp only [cc8__pool_kernel_eq_skeleton]; unfold cc8__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3
  obtain rfl := harg6.eq_unread hfs0; obtain rfl := harg7.eq_unread hfs1
  sl_exec (disch := first | exact hc0 | exact hc1)
  sl_step
  iapply Hk
  isplitl [H0]; · iapply owns_unread8 c harg1; iexact H0
  isplitl [H1]; · iapply owns_unread8 c harg2; iexact H1
  isplitl [H2]; · iapply owns_unread8 c harg3; iexact H2
  isplitl [H3]; · iapply owns_unread8 c harg4; iexact H3
  isplitl [H4]
  · iexists _; isplitr; swap; · iexact H4
    ipureintro; refine (View.read_writes_eq_canon _ _ _ (View.cover_of_tiledL _ S64x10.size (by sl_kernel_rfl))).trans ?_
    sl_unfold_words; rw [View.canon_unit_zero (S := S64x10) hz8]; simp only [View.readAt_eq_ld, harg1.read_unread, harg2.read_unread, harg3.read_unread, harg4.read_unread, harg6.read_unread, harg7.read_unread,
      View.ld_unit_zero (S := S2000x128) hz8, View.ld_unit_zero (S := S2000x1) hz8, View.ld_unit_zero (S := S64x128) hz8, View.ld_unit_zero (S := S64x1) hz8,
      View.ld_unit_zero (S := S128x10) hz8, View.ld_unit_zero (S := S1x10) hz8, View.readCov_unit_zero (S := S64x128) _ hz8,
      View.readCov_unit_zero (S := S64x1) _ hz8]
  isplitl [HS0]
  · iexists _; isplitr; swap; · iexact HS0
    ipureintro; refine (View.read_writes_eq_canon _ _ _ (View.cover_of_tiledL _ S64x128.size (by sl_kernel_rfl))).trans ?_
    sl_unfold_words; rw [View.canon_unit_zero (S := S64x128) hz8]; simp only [View.readAt_eq_ld, harg1.read_unread, harg2.read_unread, harg6.read_unread, View.ld_unit_zero (S := S2000x128) hz8,
      View.ld_unit_zero (S := S2000x1) hz8, View.ld_unit_zero (S := S64x128) hz8]
  iexists _; isplitr; swap; · iexact HS1
  ipureintro; refine (View.read_writes_eq_canon _ _ _ (View.cover_of_tiledL _ S64x1.size (by sl_kernel_rfl))).trans ?_
  sl_unfold_words; rw [View.canon_unit_zero (S := S64x1) hz8]; simp only [View.readAt_eq_ld, harg2.read_unread, harg7.read_unread, View.ld_unit_zero (S := S2000x1) hz8, View.ld_unit_zero (S := S64x1) hz8]

end

end Cert.KernelIdeal.Gen

end
-- ==== Proof.KI.Reg8.lean ====
import proofs.«404363_j60902636257457_1_alg».proof.Proof.KI.Reg8Runs
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def acc8 (c : Dev nD) : (n : ℕ) → n < cfg8.N → Vec F S64x128 .f32 × Vec F S64x1 .f32
  | 0, hn => (k8_pay4 (iblk8 V c 1 ⟨0, hn⟩) (iblk8 V c 0 ⟨0, hn⟩) k8_pay1, k8_pay5 (iblk8 V c 1 ⟨0, hn⟩) k8_pay2)
  | n + 1, hn => (k8_pay4 (iblk8 V c 1 ⟨n + 1, hn⟩) (iblk8 V c 0 ⟨n + 1, hn⟩) (acc8 c n (Nat.lt_of_succ_lt hn)).1,
      k8_pay5 (iblk8 V c 1 ⟨n + 1, hn⟩) (acc8 c n (Nat.lt_of_succ_lt hn)).2)

theorem acc8_zero (c : Dev nD) (t : Fin cfg8.N) (h : t.val = 0) :
    acc8 V c t.val t.isLt = (k8_pay4 (iblk8 V c 1 t) (iblk8 V c 0 t) k8_pay1, k8_pay5 (iblk8 V c 1 t) k8_pay2) := by
  obtain ⟨n, hn⟩ := t
  cases n with
  | zero => rfl
  | succ n => exact absurd h (Nat.succ_ne_zero n)

theorem acc8_pos (c : Dev nD) (t : Fin cfg8.N) (h : t.val ≠ 0) :
    acc8 V c t.val t.isLt = (k8_pay4 (iblk8 V c 1 t) (iblk8 V c 0 t) (acc8 V c (t.val - 1) (Nat.lt_of_le_of_lt (Nat.sub_le _ _) t.isLt)).1,
      k8_pay5 (iblk8 V c 1 t) (acc8 V c (t.val - 1) (Nat.lt_of_le_of_lt (Nat.sub_le _ _) t.isLt)).2) := by
  obtain ⟨n, hn⟩ := t
  cases n with
  | zero => exact absurd rfl h
  | succ n => rfl

/-- The invariant between points: the per-graph sums are `a0` and the per-graph counts are `a1`. -/
abbrev carry8 (c : Dev nD) (a0 : Vec F S64x128 .f32) (a1 : Vec F S64x1 .f32) : sProp 𝕄 :=
  iprop(iprop(iprop(owns (c : Thread nD τ) scM8_0 fullShare a0 ∗ owns (c : Thread nD τ) scM8_1 fullShare a1)
      ∗ Pipeline.scopedRestBut spec8 c [cc8_scratch0, cc8_scratch1]) ∗ (∃ r, prngReg c r))

def PhiS8 (c : Dev nD) : (n : ℕ) → n ≤ cfg8.N → sProp 𝕄
  | 0, _ => Pipeline.ΦA spec8 c
  | n + 1, hn => carry8 c (acc8 V c n hn).1 (acc8 V c n hn).2

theorem PhiS8_zero (c : Dev nD) (n : ℕ) (h : n ≤ cfg8.N) (hz : n = 0) : PhiS8 V c n h = Pipeline.ΦA spec8 c := by
  subst hz; rfl

theorem PhiS8_pos (c : Dev nD) (n : ℕ) (h : n ≤ cfg8.N) (hz : n ≠ 0) : PhiS8 V c n h = carry8 c (acc8 V c (n - 1) (by omega)).1 (acc8 V c (n - 1) (by omega)).2 := by
  cases n with
  | zero => exact absurd rfl hz
  | succ n => rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => k8_pay6 (acc8 V c t.val t.isLt).1 (acc8 V c t.val t.isLt).2 (iblk8 V c 2 t) (iblk8 V c 3 t)
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.val_castSucc]

theorem after8_4 (c : Dev nD) (t : Fin cfg8.N) :
    (dat8 V c).after 4 t = k8_pay6 (acc8 V c t.val t.isLt).1 (acc8 V c t.val t.isLt).2 (iblk8 V c 2 t) (iblk8 V c 3 t) := by dsimp only [dat8]

theorem lt49_8 : 49 < cfg8.N := by show 49 < grid8.N; rw [N_8]; omega

theorem before8 (c : Dev nD) (t : Fin cfg8.N) :
    (∀ d, (dat8 V c).before 0 t d = iblk8 V c 0 t)
    ∧ (∀ d, (dat8 V c).before 1 t d = iblk8 V c 1 t)
    ∧ (∀ d, (dat8 V c).before 2 t d = iblk8 V c 2 t)
    ∧ (∀ d, (dat8 V c).before 3 t d = iblk8 V c 3 t) := by
  refine ⟨?_, ?_, ?_, ?_⟩ <;> exact fun d =>
    (Dat.before_in_eq_fetched (dat8 V c) _ rfl (fun _ => rfl) (fun _ _ _ => rfl) (fun _ => rfl) t d).trans rfl

theorem idle8_4_ne : ∀ t : Fin cfg8.N, t.val ≠ 49 → idle8 4 (grid8.coords t) = true := by decide +kernel
theorem flush8_4_ne : ∀ t : Fin cfg8.N, t.val ≠ 49 → (win8 4).flush t = false := by decide +kernel
theorem idle8_4_eq : ∀ t : Fin cfg8.N, t.val = 49 → idle8 4 (grid8.coords t) = false := by decide +kernel

set_option maxHeartbeats 4800000 in
theorem body_obligation8 (c : Dev nD) : BodyObligation (dat8 (F := F) V c) (defs₀ (F := F)) Variants.none () Set.univ := fun t => by
  rw [bigSep_W8, bigSep_W8]
  simp only [(before8 V c t).1, (before8 V c t).2.1, (before8 V c t).2.2.1, (before8 V c t).2.2.2]
  rw [show (dat8 V c).owesAt () t.succ = (dat8 V c).owesAt () t.castSucc from rfl,
    show (dat8 V c).Φ t.succ = carry8 c (acc8 V c t.val t.isLt).1 (acc8 V c t.val t.isLt).2 from rfl,
    show (dat8 V c).after 0 t = iblk8 V c 0 t from rfl, show (dat8 V c).after 1 t = iblk8 V c 1 t from rfl,
    show (dat8 V c).after 2 t = iblk8 V c 2 t from rfl, show (dat8 V c).after 3 t = iblk8 V c 3 t from rfl]
  unfold carry8
  change _ ⊢ wp _ _ _ (bodyAt8 t) _
  unfold bodyAt8
  have hN : t.val < 50 := lt_of_lt_of_eq t.isLt (show cfg8.N = 50 from N_8)
  by_cases h1 : t.val = 49
  · have h0 : t.val ≠ 0 := by omega
    simp only [idle8_4_eq t h1, after8_4]
    rw [acc8_pos V c t h0]; dsimp only
    rw [PhiS8_castSucc V c t, PhiS8_pos V c _ _ h0]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel8_C c (grid8.coords t) _ _ _ _ _ _ _ _ _ _ _ _ _ _ (mt (hcond8_0 t).mp h0) ((hcond8_1 t).mpr h1)
      (iblk8 V c 0 t) (iblk8 V c 1 t) (iblk8 V c 2 t) (iblk8 V c 3 t) _ _ Set.univ _)
    iframe H0 H1 H2 H3 HS0 HS1
    isplitl [H4]; · iexists _; iexact H4
    iintro ⟨H0, H1, H2, H3, H4, HS0, HS1⟩
    iframe HS0 HS1 HR Hg Ho H0 H1 H2 H3
    iexact H4
  · simp only [idle8_4_ne t h1, flush8_4_ne t h1]
    by_cases h0 : t.val = 0
    · rw [acc8_zero V c t h0]; dsimp only
      rw [PhiS8_castSucc V c t, PhiS8_zero V c _ _ h0, PhiA8_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel8_A c (grid8.coords t) _ _ _ _ _ _ _ _ _ _ _ _ _ _ ((hcond8_0 t).mpr h0) (mt (hcond8_1 t).mp h1)
        (iblk8 V c 0 t) (iblk8 V c 1 t) (iblk8 V c 2 t) (iblk8 V c 3 t) _ Set.univ _)
      iframe H0 H1 H2 H3 HS0 HS1
      isplitl [H4]; · iexact H4
      iintro ⟨H0, H1, H2, H3, H4, HS0, HS1⟩
      iframe HS0 HS1 HR Hg Ho H0 H1 H2 H3
      iexists _; iexact H4
    · rw [acc8_pos V c t h0]; dsimp only
      rw [PhiS8_castSucc V c t, PhiS8_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel8_B c (grid8.coords t) _ _ _ _ _ _ _ _ _ _ _ _ _ _ (mt (hcond8_0 t).mp h0) (mt (hcond8_1 t).mp h1)
        (iblk8 V c 0 t) (iblk8 V c 1 t) (iblk8 V c 2 t) (iblk8 V c 3 t) _ _ _ Set.univ _)
      iframe H0 H1 H2 H3 HS0 HS1
      isplitl [H4]; · iexact H4
      iintro ⟨H0, H1, H2, H3, H4, HS0, HS1⟩
      iframe HS0 HS1 HR Hg Ho H0 H1 H2 H3
      iexists _; iexact H4

theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- Sums and counts known exactly are in particular sums and counts at some value. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 50 := N_8; omega), PhiA8_eq]
  iintro ⟨⟨⟨HS0, HS1⟩, HR⟩, Hg⟩
  iframe HR Hg
  isplitl [HS0]; · iexists _; iexact HS0
  iexists _; iexact HS1

end Cert.KernelIdeal.Gen

end
-- ==== Proof.KI.Chain.lean ====
import proofs.«404363_j60902636257457_1_alg».proof.Proof.Gen.KernelIdeal.Regions
import proofs.«404363_j60902636257457_1_alg».proof.Proof.Gen.KernelIdeal.Skeleton
import proofs.«404363_j60902636257457_1_alg».proof.Proof.Gen.KernelIdeal.Points
import proofs.«404363_j60902636257457_1_alg».proof.Proof.KI.Reg0
import proofs.«404363_j60902636257457_1_alg».proof.Proof.KI.Reg1
import proofs.«404363_j60902636257457_1_alg».proof.Proof.KI.Reg2
import proofs.«404363_j60902636257457_1_alg».proof.Proof.KI.Reg3
import proofs.«404363_j60902636257457_1_alg».proof.Proof.KI.Reg4
import proofs.«404363_j60902636257457_1_alg».proof.Proof.KI.Reg5
import proofs.«404363_j60902636257457_1_alg».proof.Proof.KI.Reg6
import proofs.«404363_j60902636257457_1_alg».proof.Proof.KI.Reg7
import proofs.«404363_j60902636257457_1_alg».proof.Proof.KI.Reg8
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- Replacing the arrays of distinct references, all but one by the contents already there, is an update at that one.
theorem withArrays_eq_update {gr W : Nat} (win : Fin W → Pipeline.WinSpec sig gr) (hinj : Function.Injective (Pipeline.arrRef win))
    (c : Dev nD) (X : Valuation τ sig (Elt F)) (A : (w : Fin W) → Buf (Elt F) ((win w).arr.view.loc (c.tc : Thread nD τ))) (o : Fin W)
    (hin : ∀ w, w ≠ o → A w = X (Proc.devRef .tc (Pipeline.arrRef win w))) :
    Pipeline.withArrays win c X A = Function.update X (Proc.devRef .tc (Pipeline.arrRef win o)) (A o) := by
  funext b
  by_cases hb : b = Proc.devRef .tc (Pipeline.arrRef win o)
  · subst hb; rw [Function.update_self, Pipeline.withArrays_arr win hinj]
  · rw [Function.update_of_ne hb]
    by_cases h : ∃ w, Proc.devRef .tc (Pipeline.arrRef win w) = b
    · obtain ⟨w, rfl⟩ := h
      rw [Pipeline.withArrays_arr win hinj]
      exact hin w (fun e => hb (by rw [e]))
    · unfold Pipeline.withArrays; rw [dif_neg h]

abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Region

variable (p : Fin 9) (c : Dev nD) (d : Dat τ (Elt F) Unit ℕ (UR sig nD τ) ℕ (cfgs p) c) (X : Valuation τ sig (Elt F))

-- The valuation region p leaves from X: its arrays at their final contents, every other buffer as in X.
def exitVal : Valuation τ sig (Elt F) := Pipeline.withArrays (cfgs p).spec c X fun w => d.arrAt w (cfgs p).N

theorem exitVal_arr (launch : Pipeline.LaunchFacts (nD := nD) (τ := τ) cfgs p) (w : Fin (cfgs p).W) :
    exitVal p c d X (Proc.devRef .tc (Pipeline.arrRef (cfgs p).spec w)) = d.arrAt w (cfgs p).N :=
  Pipeline.withArrays_arr _ launch.win.arr_inj c _ _ w

theorem exitVal_rest (b : Ref sig .tc) (hb : b ∉ Finset.univ.image (Pipeline.arrRef (cfgs p).spec)) :
    exitVal p c d X b = X b :=
  Pipeline.withArrays_of_ne _ c _ _ b fun w e => hb (Finset.mem_image.mpr ⟨w, Finset.mem_univ _, e⟩)

-- An input window's array ends as it began, so a region whose only output window is o changes that one array.
theorem exitVal_upd (launch : Pipeline.LaunchFacts (nD := nD) (τ := τ) cfgs p) (o : Fin (cfgs p).W)
    (hin : ∀ w, w ≠ o → ((cfgs p).win w).isOut = false) (hA : ∀ w, d.A w = X (Pipeline.arrRef (cfgs p).spec w)) :
    exitVal p c d X = Function.update X (Proc.devRef .tc (Pipeline.arrRef (cfgs p).spec o))
      (exitVal p c d X (Proc.devRef .tc (Pipeline.arrRef (cfgs p).spec o))) := by
  rw [exitVal_arr p c d X launch o]
  exact withArrays_eq_update _ launch.win.arr_inj c X _ o fun w hw => (d.arrAt_in w (hin w hw) _).trans (hA w)

end Region

set_option backward.isDefEq.respectTransparency.types false in
-- Region p as a segment carrying the entry valuation of the unscoped buffers to the exit valuation.
def mkReg (pd : (p : Fin 9) → (c : Dev nD) → Dat τ (Elt F) Unit ℕ (UR sig nD τ) ℕ (cfgs p) c) (p : Fin 9)
    (launch : Pipeline.LaunchFacts (nD := nD) (τ := τ) cfgs p) (Xin Xout : Dev nD → Valuation τ sig (Elt F))
    (hX : ∀ c, Xout c = exitVal p c (pd p c) (Xin c))
    (hbody : ∀ c, BodyObligation (pd p c) (defs₀ (F := F)) Variants.none () Set.univ)
    (hq : ∀ c w, (pd p c).q w = fullShare) (howed : ∀ c t, (pd p c).owed t = 0) (hrec : ∀ c t, (pd p c).recorded t = Set.univ)
    (hΦi : ∀ c, Pipeline.ΦA (cfgs p).spec c ⊢ (pd p c).Φ 0)
    (hΦo : ∀ c, (pd p c).Φ (Fin.last (cfgs p).N) ⊢ Pipeline.ΦA (cfgs p).spec c)
    (hA : ∀ c w, (pd p c).A w = Xin c (Pipeline.arrRef (cfgs p).spec w)) :
    Pipeline.RegionSeg (pcfgs (F := F)) adm pd () defs₀ Variants.none L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Xin c) ∗ R c)
  post c := iprop(StableHlo.held (c : Thread nD τ) (Pipeline.ucRefs τ sig) (Xout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Xin c b)
  hentry c := by
    rw [Pipeline.ownSems0_none]
    have hsplit := Pipeline.arrays_of_unscopedBufs (p := p) (pcfgs (F := F)) adm pd launch.win launch.arr_whole c
      ((pd p c).share_full (hq c)) (fun b => Xin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr
      · ipureintro; exact fun _ _ => Or.inl (by rw [hrec c]; exact Set.mem_univ _)
      iexact HO
    isplitl [Hp]; · iexact Hp
    iexact Hrest
  hin c := by
    refine .trans ?_ (hΦi c)
    unfold Pipeline.ΦA
    iintro ⟨Hp, -, Hr⟩
    isplitl [Hr]; · iexact Hr
    iexact Hp
  hout c := by
    rw [Pipeline.ownSems0_none]
    refine (hΦo c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c pd ((pd p c).share_full (hq c))
      (fun b => Xin c b) (fun b => Xout c b) ((pd p c).arrAt · (cfgs p).N)
      (fun w => by rw [hX c]; exact (exitVal_arr p c _ _ launch w).symm)
      (fun b hb => by rw [hX c]; exact exitVal_rest p c _ _ b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

variable (m : (ℓ : Loc nD τ sig) → Buf (Elt F) ℓ)

abbrev X0 (c : Dev nD) : Valuation τ sig (Elt F) := fun b => m (c, b)
abbrev X1 (c : Dev nD) : Valuation τ sig (Elt F) := StableHlo.after hostOps0 (X0 m c)

def X2 (c : Dev nD) : Valuation τ sig (Elt F) := exitVal 0 c (dat0 (fun c b => X1 m c b) c) (X1 m c)
theorem X2_v28 (c : Dev nD) : X2 m c main_v28 = (dat0 (fun c b => X1 m c b) c).arrAt 2 cfg0.N :=
  exitVal_arr 0 c _ _ launch0 (2 : Fin cfg0.W)
theorem X2_upd (c : Dev nD) : X2 m c = Function.update (X1 m c) main_v28 (X2 m c main_v28) :=
  exitVal_upd 0 c _ _ launch0 (2 : Fin cfg0.W) (by decide) (A_eq0 _ c)
abbrev X3 (c : Dev nD) : Valuation τ sig (Elt F) := StableHlo.after hostOps1 (X2 m c)

def X4 (c : Dev nD) : Valuation τ sig (Elt F) := exitVal 1 c (dat1 (fun c b => X3 m c b) c) (X3 m c)
theorem X4_v49 (c : Dev nD) : X4 m c main_v49 = (dat1 (fun c b => X3 m c b) c).arrAt 2 cfg1.N :=
  exitVal_arr 1 c _ _ launch1 (2 : Fin cfg1.W)
theorem X4_upd (c : Dev nD) : X4 m c = Function.update (X3 m c) main_v49 (X4 m c main_v49) :=
  exitVal_upd 1 c _ _ launch1 (2 : Fin cfg1.W) (by decide) (A_eq1 _ c)

def X5 (c : Dev nD) : Valuation τ sig (Elt F) := exitVal 2 c (dat2 (fun c b => X4 m c b) c) (X4 m c)
theorem X5_v50 (c : Dev nD) : X5 m c main_v50 = (dat2 (fun c b => X4 m c b) c).arrAt 2 cfg2.N :=
  exitVal_arr 2 c _ _ launch2 (2 : Fin cfg2.W)
theorem X5_upd (c : Dev nD) : X5 m c = Function.update (X4 m c) main_v50 (X5 m c main_v50) :=
  exitVal_upd 2 c _ _ launch2 (2 : Fin cfg2.W) (by decide) (A_eq2 _ c)
abbrev X6 (c : Dev nD) : Valuation τ sig (Elt F) := StableHlo.after hostOps3 (X5 m c)

def X7 (c : Dev nD) : Valuation τ sig (Elt F) := exitVal 3 c (dat3 (fun c b => X6 m c b) c) (X6 m c)
theorem X7_v71 (c : Dev nD) : X7 m c main_v71 = (dat3 (fun c b => X6 m c b) c).arrAt 2 cfg3.N :=
  exitVal_arr 3 c _ _ launch3 (2 : Fin cfg3.W)
theorem X7_upd (c : Dev nD) : X7 m c = Function.update (X6 m c) main_v71 (X7 m c main_v71) :=
  exitVal_upd 3 c _ _ launch3 (2 : Fin cfg3.W) (by decide) (A_eq3 _ c)

def X8 (c : Dev nD) : Valuation τ sig (Elt F) := exitVal 4 c (dat4 (fun c b => X7 m c b) c) (X7 m c)
theorem X8_v72 (c : Dev nD) : X8 m c main_v72 = (dat4 (fun c b => X7 m c b) c).arrAt 2 cfg4.N :=
  exitVal_arr 4 c _ _ launch4 (2 : Fin cfg4.W)
theorem X8_upd (c : Dev nD) : X8 m c = Function.update (X7 m c) main_v72 (X8 m c main_v72) :=
  exitVal_upd 4 c _ _ launch4 (2 : Fin cfg4.W) (by decide) (A_eq4 _ c)
abbrev X9 (c : Dev nD) : Valuation τ sig (Elt F) := StableHlo.after hostOps5 (X8 m c)

def X10 (c : Dev nD) : Valuation τ sig (Elt F) := exitVal 5 c (dat5 (fun c b => X9 m c b) c) (X9 m c)
theorem X10_v93 (c : Dev nD) : X10 m c main_v93 = (dat5 (fun c b => X9 m c b) c).arrAt 2 cfg5.N :=
  exitVal_arr 5 c _ _ launch5 (2 : Fin cfg5.W)
theorem X10_upd (c : Dev nD) : X10 m c = Function.update (X9 m c) main_v93 (X10 m c main_v93) :=
  exitVal_upd 5 c _ _ launch5 (2 : Fin cfg5.W) (by decide) (A_eq5 _ c)

def X11 (c : Dev nD) : Valuation τ sig (Elt F) := exitVal 6 c (dat6 (fun c b => X10 m c b) c) (X10 m c)
theorem X11_v94 (c : Dev nD) : X11 m c main_v94 = (dat6 (fun c b => X10 m c b) c).arrAt 2 cfg6.N :=
  exitVal_arr 6 c _ _ launch6 (2 : Fin cfg6.W)
theorem X11_upd (c : Dev nD) : X11 m c = Function.update (X10 m c) main_v94 (X11 m c main_v94) :=
  exitVal_upd 6 c _ _ launch6 (2 : Fin cfg6.W) (by decide) (A_eq6 _ c)
abbrev X12 (c : Dev nD) : Valuation τ sig (Elt F) := StableHlo.after hostOps7 (X11 m c)

def X13 (c : Dev nD) : Valuation τ sig (Elt F) := exitVal 7 c (dat7 (fun c b => X12 m c b) c) (X12 m c)
theorem X13_v115 (c : Dev nD) : X13 m c main_v115 = (dat7 (fun c b => X12 m c b) c).arrAt 2 cfg7.N :=
  exitVal_arr 7 c _ _ launch7 (2 : Fin cfg7.W)
theorem X13_upd (c : Dev nD) : X13 m c = Function.update (X12 m c) main_v115 (X13 m c main_v115) :=
  exitVal_upd 7 c _ _ launch7 (2 : Fin cfg7.W) (by decide) (A_eq7 _ c)
abbrev X14 (c : Dev nD) : Valuation τ sig (Elt F) := StableHlo.after hostOps8 (X13 m c)

def X15 (c : Dev nD) : Valuation τ sig (Elt F) := exitVal 8 c (dat8 (fun c b => X14 m c b) c) (X14 m c)
theorem X15_v118 (c : Dev nD) : X15 m c main_v118 = (dat8 (fun c b => X14 m c b) c).arrAt 4 cfg8.N :=
  exitVal_arr 8 c _ _ launch8 (4 : Fin cfg8.W)
theorem X15_upd (c : Dev nD) : X15 m c = Function.update (X14 m c) main_v118 (X15 m c main_v118) :=
  exitVal_upd 8 c _ _ launch8 (4 : Fin cfg8.W) (by decide) (A_eq8 _ c)

def outs : Outs (F := F) := fun J r c => match J with
  | 2 => X2 m c r
  | 4 => X4 m c r
  | 5 => X5 m c r
  | 7 => X7 m c r
  | 8 => X8 m c r
  | 10 => X10 m c r
  | 11 => X11 m c r
  | 13 => X13 m c r
  | 15 => X15 m c r
  | _ => X0 m c r

theorem V1_eq (c : Dev nD) : V1 m c = X1 m c := rfl
theorem V2_eq (c : Dev nD) : V2 m (outs m) c = X2 m c := by
  show Function.update (V1 m c) main_v28 (X2 m c main_v28) = X2 m c
  rw [V1_eq]; exact (X2_upd m c).symm
theorem V3_eq (c : Dev nD) : V3 m (outs m) c = X3 m c := by
  show StableHlo.after hostOps1 (V2 m (outs m) c) = StableHlo.after hostOps1 (X2 m c)
  rw [V2_eq]
theorem V4_eq (c : Dev nD) : V4 m (outs m) c = X4 m c := by
  show Function.update (V3 m (outs m) c) main_v49 (X4 m c main_v49) = X4 m c
  rw [V3_eq]; exact (X4_upd m c).symm
theorem V5_eq (c : Dev nD) : V5 m (outs m) c = X5 m c := by
  show Function.update (V4 m (outs m) c) main_v50 (X5 m c main_v50) = X5 m c
  rw [V4_eq]; exact (X5_upd m c).symm
theorem V6_eq (c : Dev nD) : V6 m (outs m) c = X6 m c := by
  show StableHlo.after hostOps3 (V5 m (outs m) c) = StableHlo.after hostOps3 (X5 m c)
  rw [V5_eq]
theorem V7_eq (c : Dev nD) : V7 m (outs m) c = X7 m c := by
  show Function.update (V6 m (outs m) c) main_v71 (X7 m c main_v71) = X7 m c
  rw [V6_eq]; exact (X7_upd m c).symm
theorem V8_eq (c : Dev nD) : V8 m (outs m) c = X8 m c := by
  show Function.update (V7 m (outs m) c) main_v72 (X8 m c main_v72) = X8 m c
  rw [V7_eq]; exact (X8_upd m c).symm
theorem V9_eq (c : Dev nD) : V9 m (outs m) c = X9 m c := by
  show StableHlo.after hostOps5 (V8 m (outs m) c) = StableHlo.after hostOps5 (X8 m c)
  rw [V8_eq]
theorem V10_eq (c : Dev nD) : V10 m (outs m) c = X10 m c := by
  show Function.update (V9 m (outs m) c) main_v93 (X10 m c main_v93) = X10 m c
  rw [V9_eq]; exact (X10_upd m c).symm
theorem V11_eq (c : Dev nD) : V11 m (outs m) c = X11 m c := by
  show Function.update (V10 m (outs m) c) main_v94 (X11 m c main_v94) = X11 m c
  rw [V10_eq]; exact (X11_upd m c).symm
theorem V12_eq (c : Dev nD) : V12 m (outs m) c = X12 m c := by
  show StableHlo.after hostOps7 (V11 m (outs m) c) = StableHlo.after hostOps7 (X11 m c)
  rw [V11_eq]
theorem V13_eq (c : Dev nD) : V13 m (outs m) c = X13 m c := by
  show Function.update (V12 m (outs m) c) main_v115 (X13 m c main_v115) = X13 m c
  rw [V12_eq]; exact (X13_upd m c).symm
theorem V14_eq (c : Dev nD) : V14 m (outs m) c = X14 m c := by
  show StableHlo.after hostOps8 (V13 m (outs m) c) = StableHlo.after hostOps8 (X13 m c)
  rw [V13_eq]
theorem V15_eq (c : Dev nD) : V15 m (outs m) c = X15 m c := by
  show Function.update (V14 m (outs m) c) main_v118 (X15 m c main_v118) = X15 m c
  rw [V14_eq]; exact (X15_upd m c).symm

def pdats : (p : Fin 9) → (c : Dev nD) → Dat τ (Elt F) Unit ℕ (UR sig nD τ) ℕ (cfgs p) c
  | ⟨0, _⟩ => fun c => dat0 (fun c b => X1 m c b) c
  | ⟨1, _⟩ => fun c => dat1 (fun c b => X3 m c b) c
  | ⟨2, _⟩ => fun c => dat2 (fun c b => X4 m c b) c
  | ⟨3, _⟩ => fun c => dat3 (fun c b => X6 m c b) c
  | ⟨4, _⟩ => fun c => dat4 (fun c b => X7 m c b) c
  | ⟨5, _⟩ => fun c => dat5 (fun c b => X9 m c b) c
  | ⟨6, _⟩ => fun c => dat6 (fun c b => X10 m c b) c
  | ⟨7, _⟩ => fun c => dat7 (fun c b => X12 m c b) c
  | ⟨8, _⟩ => fun c => dat8 (fun c b => X14 m c b) c

set_option backward.isDefEq.respectTransparency.types false in
def reg0 : Pipeline.RegionSeg (pcfgs (F := F)) adm (pdats m) () defs₀ Variants.none L lv 0 :=
  mkReg (pdats m) 0 launch0 (X1 m) (X2 m) (fun _ => rfl) (fun c => body_obligation0 (fun c b => X1 m c b) c)
    (fun _ _ => rfl) (fun _ _ => rfl) (fun _ _ => rfl) (fun _ => .rfl) (fun _ => .rfl) (fun c => A_eq0 (fun c b => X1 m c b) c)

set_option backward.isDefEq.respectTransparency.types false in
def reg1 : Pipeline.RegionSeg (pcfgs (F := F)) adm (pdats m) () defs₀ Variants.none L lv 1 :=
  mkReg (pdats m) 1 launch1 (X3 m) (X4 m) (fun _ => rfl) (fun c => body_obligation1 (fun c b => X3 m c b) c)
    (fun _ _ => rfl) (fun _ _ => rfl) (fun _ _ => rfl) (fun _ => .rfl) (fun _ => .rfl) (fun c => A_eq1 (fun c b => X3 m c b) c)

set_option backward.isDefEq.respectTransparency.types false in
def reg2 : Pipeline.RegionSeg (pcfgs (F := F)) adm (pdats m) () defs₀ Variants.none L lv 2 :=
  mkReg (pdats m) 2 launch2 (X4 m) (X5 m) (fun _ => rfl) (fun c => body_obligation2 (fun c b => X4 m c b) c)
    (fun _ _ => rfl) (fun _ _ => rfl) (fun _ _ => rfl) (fun _ => .rfl) (fun _ => .rfl) (fun c => A_eq2 (fun c b => X4 m c b) c)

set_option backward.isDefEq.respectTransparency.types false in
def reg3 : Pipeline.RegionSeg (pcfgs (F := F)) adm (pdats m) () defs₀ Variants.none L lv 3 :=
  mkReg (pdats m) 3 launch3 (X6 m) (X7 m) (fun _ => rfl) (fun c => body_obligation3 (fun c b => X6 m c b) c)
    (fun _ _ => rfl) (fun _ _ => rfl) (fun _ _ => rfl) (fun _ => .rfl) (fun _ => .rfl) (fun c => A_eq3 (fun c b => X6 m c b) c)

set_option backward.isDefEq.respectTransparency.types false in
def reg4 : Pipeline.RegionSeg (pcfgs (F := F)) adm (pdats m) () defs₀ Variants.none L lv 4 :=
  mkReg (pdats m) 4 launch4 (X7 m) (X8 m) (fun _ => rfl) (fun c => body_obligation4 (fun c b => X7 m c b) c)
    (fun _ _ => rfl) (fun _ _ => rfl) (fun _ _ => rfl) (fun _ => .rfl) (fun _ => .rfl) (fun c => A_eq4 (fun c b => X7 m c b) c)

set_option backward.isDefEq.respectTransparency.types false in
def reg5 : Pipeline.RegionSeg (pcfgs (F := F)) adm (pdats m) () defs₀ Variants.none L lv 5 :=
  mkReg (pdats m) 5 launch5 (X9 m) (X10 m) (fun _ => rfl) (fun c => body_obligation5 (fun c b => X9 m c b) c)
    (fun _ _ => rfl) (fun _ _ => rfl) (fun _ _ => rfl) (fun _ => .rfl) (fun _ => .rfl) (fun c => A_eq5 (fun c b => X9 m c b) c)

set_option backward.isDefEq.respectTransparency.types false in
def reg6 : Pipeline.RegionSeg (pcfgs (F := F)) adm (pdats m) () defs₀ Variants.none L lv 6 :=
  mkReg (pdats m) 6 launch6 (X10 m) (X11 m) (fun _ => rfl) (fun c => body_obligation6 (fun c b => X10 m c b) c)
    (fun _ _ => rfl) (fun _ _ => rfl) (fun _ _ => rfl) (fun _ => .rfl) (fun _ => .rfl) (fun c => A_eq6 (fun c b => X10 m c b) c)

set_option backward.isDefEq.respectTransparency.types false in
def reg7 : Pipeline.RegionSeg (pcfgs (F := F)) adm (pdats m) () defs₀ Variants.none L lv 7 :=
  mkReg (pdats m) 7 launch7 (X12 m) (X13 m) (fun _ => rfl) (fun c => body_obligation7 (fun c b => X12 m c b) c)
    (fun _ _ => rfl) (fun _ _ => rfl) (fun _ _ => rfl) (fun _ => .rfl) (fun _ => .rfl) (fun c => A_eq7 (fun c b => X12 m c b) c)

set_option backward.isDefEq.respectTransparency.types false in
def reg8 : Pipeline.RegionSeg (pcfgs (F := F)) adm (pdats m) () defs₀ Variants.none L lv 8 :=
  mkReg (pdats m) 8 launch8 (X14 m) (X15 m) (fun _ => rfl) (fun c => body_obligation8 (fun c b => X14 m c b) c)
    (fun _ _ => rfl) (fun _ _ => rfl) (fun _ _ => rfl) (fun c => hin8 (fun c b => X14 m c b) c) (fun c => hout8 (fun c b => X14 m c b) c) (fun c => A_eq8 (fun c b => X14 m c b) c)

end Cert.KernelIdeal.Gen

end
-- ==== Proof.KI.Run.lean ====
import proofs.«404363_j60902636257457_1_alg».proof.Proof.KI.Chain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev hseg (ops : List (HloOp τ sig (Elt F))) (hsub : ops.Forall fun op => op.bufs ⊆ StableHlo.tcRefs τ sig)
    (hfresh : ops.Forall fun op => op.fresh = ∅) (X : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) X R

-- @main as its fifteen items in order: six host stretches and nine kernel regions, each entered at the chain's valuation there.
abbrev items : List (Pipeline.Seg (pcfgs (F := F)) adm (pdats m) () defs₀ Variants.none L lv) :=
  [ .host (hseg hostOps0 hostOps0_sub hostOps0_fresh (X0 m)),
    .region (reg0 m),
    .host (hseg hostOps1 hostOps1_sub hostOps1_fresh (X2 m)),
    .region (reg1 m),
    .region (reg2 m),
    .host (hseg hostOps3 hostOps3_sub hostOps3_fresh (X5 m)),
    .region (reg3 m),
    .region (reg4 m),
    .host (hseg hostOps5 hostOps5_sub hostOps5_fresh (X8 m)),
    .region (reg5 m),
    .region (reg6 m),
    .host (hseg hostOps7 hostOps7_sub hostOps7_fresh (X11 m)),
    .region (reg7 m),
    .host (hseg hostOps8 hostOps8_sub hostOps8_fresh (X13 m)),
    .region (reg8 m) ]

theorem main_run (c : Dev nD) : main (F := F) c = Pipeline.Seg.run (items m) := by
  rw [main_chain c, Pipeline.Seg.run_eq_chain]; rfl

abbrev Tₙ (c : Dev nD) : sProp 𝕄 := iprop(StableHlo.held (c : Thread nD τ) (Pipeline.ucRefs τ sig) (X15 m c) ∗ ∃ r, prngReg c r)

-- Each item carries one valuation of the unscoped buffers to the next, so every fair execution ends with them at the last one.
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = X15 m c b) :=
  Pipeline.θ_run_regions_kit (pcfgs (F := F)) adm (pdats m) () cellOf_inj emb₁ defs₀ Variants.none L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (X0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (X15 m c) ∗ (∃ r, prngReg c r)
            ∗ ∃ W, owes (c : Thread nD τ) (0 : CellTallies nD τ sig Unit) W)
          ⊢ iprop((StableHlo.held (c : Thread nD τ) (Pipeline.ucRefs τ sig) (X15 m c) ∗ ∃ r, prngReg c r)
            ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (X0 m c)
        from Pipeline.unscopedBufs_held c (X0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = X15 m c b)
    (hfin := fun c s' => by
      iintro ⟨⟨Hh, -⟩, HSI⟩
      unfold StableHlo.held
      imodintro
      iapply (pointsTo_read_all (Pipeline.ucRefs τ sig) (fun b => ((c : Thread nD τ).1, b)) (X15 m c) s')
      isplitl [Hh] <;> iassumption)
    (hQ := fun s h => h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- The last valuation is the conditional frame's, so a buffer that frame leaves at its launch contents ends there.
theorem X15_launch (c : Dev nD) (b : Ref sig .tc) (h : V15 m (outs m) c b = m ((c : Thread nD τ).loc b)) :
    X15 m c b = m ((c : Thread nD τ).loc b) := by
  rw [← V15_eq m c]; exact h

-- No item writes an argument array.
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs (onTc (τ := τ) (main (F := F))) ⟨m, fun _ => 0, ρ⟩).mono (fun r h c =>
    ⟨(h c _ (mem_uc main_arg0 (by decide))).trans (X15_launch m c _ (V15_main_arg0 m (outs m) c)),
     (h c _ (mem_uc main_arg1 (by decide))).trans (X15_launch m c _ (V15_main_arg1 m (outs m) c)),
     (h c _ (mem_uc main_arg2 (by decide))).trans (X15_launch m c _ (V15_main_arg2 m (outs m) c)),
     (h c _ (mem_uc main_arg3 (by decide))).trans (X15_launch m c _ (V15_main_arg3 m (outs m) c)),
     (h c _ (mem_uc main_arg4 (by decide))).trans (X15_launch m c _ (V15_main_arg4 m (outs m) c)),
     (h c _ (mem_uc main_arg5 (by decide))).trans (X15_launch m c _ (V15_main_arg5 m (outs m) c)),
     (h c _ (mem_uc main_arg6 (by decide))).trans (X15_launch m c _ (V15_main_arg6 m (outs m) c)),
     (h c _ (mem_uc main_arg7 (by decide))).trans (X15_launch m c _ (V15_main_arg7 m (outs m) c)),
     (h c _ (mem_uc main_arg8 (by decide))).trans (X15_launch m c _ (V15_main_arg8 m (outs m) c))⟩) (run_all m ρ)

end Cert.KernelIdeal.Gen

end
-- ==== Proof.KI.HostVal.lean ====
import proofs.«404363_j60902636257457_1_alg».proof.Proof.Gen.KernelIdeal.Launch
import proofs.«404363_j60902636257457_1_alg».proof.ReferenceIdeal
import proofs.«404363_j60902636257457_1_alg».proof.Proof.Spec
import Idealize.ShloMosaic.Lib.StableHlo.Run
import Idealize.ShloMosaic.Lib.ValueLayout
import Idealize.ShloMosaic.PureOps.Ideal

noncomputable section

namespace Cert.KernelIdeal.Gen

open Idealize.ShloMosaic Idealize.ShloMosaic.TcCoe Idealize.ShloMosaic.StableHlo Cert.KernelIdeal

theorem shapeCast_row_eq_broadcastInDim {α : Type} {n : ℕ} (x : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ x h = broadcastInDim ⟨2, ![1, n]⟩ ![1] hb x := by
  funext j
  have h0 : (j 0).val = 0 := by
    have : (j 0).val < 1 := (j 0).isLt
    omega
  have e1 : shapeCast ⟨2, ![1, n]⟩ x h j = x (ValueIdx.ix1 (j 1 : Fin n)) :=
    shapeCast_apply x h j _ (by
      rw [Shape.rowMajor_val_two, Shape.rowMajor_val_one]
      show (j 1).val = (j 0).val * n + (j 1).val
      rw [h0, Nat.zero_mul, Nat.zero_add])
  have e2 : broadcastInDim ⟨2, ![1, n]⟩ ![1] hb x j = x (ValueIdx.ix1 (j 1 : Fin n)) :=
    broadcastInDim_apply ![1] hb x j _ (by
      intro a
      fin_cases a
      show (j 1).val = if n = 1 then 0 else (j 1).val
      split_ifs with hn
      · have : (j 1).val < n := (j 1).isLt
        omega
      · rfl)
  exact e1.trans e2.symm

theorem shapeCast_col_eq_broadcastInDim {α : Type} {n : ℕ} (x : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ x h = broadcastInDim ⟨2, ![n, 1]⟩ ![0] hb x := by
  funext j
  have h1 : (j 1).val = 0 := by
    have : (j 1).val < 1 := (j 1).isLt
    omega
  have e1 : shapeCast ⟨2, ![n, 1]⟩ x h j = x (ValueIdx.ix1 (j 0 : Fin n)) :=
    shapeCast_apply x h j _ (by
      rw [Shape.rowMajor_val_two, Shape.rowMajor_val_one]
      show (j 0).val = (j 0).val * 1 + (j 1).val
      rw [h1, Nat.mul_one, Nat.add_zero])
  have e2 : broadcastInDim ⟨2, ![n, 1]⟩ ![0] hb x j = x (ValueIdx.ix1 (j 0 : Fin n)) :=
    broadcastInDim_apply ![0] hb x j _ (by
      intro a
      fin_cases a
      show (j 0).val = if n = 1 then 0 else (j 0).val
      split_ifs with hn
      · have : (j 0).val < n := (j 0).isLt
        omega
      · rfl)
  exact e1.trans e2.symm

variable [Cert.ReferenceIdeal.Facts]

theorem hostOps0_src (W : Valuation τ sig (Elt Ideal)) :
    StableHlo.after (hostOps0 (F := Ideal)) W (Proc.devRef .tc main_v1)
      = Cert.Spec.src (W (Proc.devRef .tc main_arg1)) := by
  after_results
  rfl

theorem hostOps0_dst (W : Valuation τ sig (Elt Ideal)) :
    StableHlo.after (hostOps0 (F := Ideal)) W (Proc.devRef .tc main_v3)
      = Cert.Spec.dst (W (Proc.devRef .tc main_arg1)) := by
  after_results
  rfl

set_option maxRecDepth 65536 in
theorem hostOps0_norm (W : Valuation τ sig (Elt Ideal)) :
    StableHlo.after (hostOps0 (F := Ideal)) W (Proc.devRef .tc main_v26)
      = Cert.Spec.norm (F := Ideal) (W (Proc.devRef .tc main_arg1)) := by
  after_results_simp
  rfl

set_option maxRecDepth 65536 in
theorem hostOps0_dinv2 (W : Valuation τ sig (Elt Ideal)) :
    StableHlo.after (hostOps0 (F := Ideal)) W (Proc.devRef .tc main_v27)
      = mulf (Cert.Spec.dinv (F := Ideal) (W (Proc.devRef .tc main_arg1)))
          (Cert.Spec.dinv (F := Ideal) (W (Proc.devRef .tc main_arg1))) := by
  after_results_simp
  rfl

set_option maxRecDepth 65536 in
theorem hostOps1_agg (W : Valuation τ sig (Elt Ideal)) :
    StableHlo.after (hostOps1 (F := Ideal)) W (Proc.devRef .tc main_v47)
      = Cert.Spec.aggOf (F := Ideal) (W (Proc.devRef .tc main_v1)) (W (Proc.devRef .tc main_v3))
          (W (Proc.devRef .tc main_v26)) (W (Proc.devRef .tc main_v27)) (W (Proc.devRef .tc main_v28)) := by
  after_results_simp
  rfl

theorem hostOps1_bias (W : Valuation τ sig (Elt Ideal)) :
    StableHlo.after (hostOps1 (F := Ideal)) W (Proc.devRef .tc main_v48)
      = broadcastInDim Cert.ReferenceIdeal.S1x128 ![1] Cert.ReferenceIdeal.Facts₀.bcast_S128_S1x128_1
          (W (Proc.devRef .tc main_arg4)) :=
  (show _ = shapeCast S1x128 (W (Proc.devRef .tc main_arg4)) shapeCasts_S128_S1x128 by after_results; rfl).trans (shapeCast_row_eq_broadcastInDim _ _ _)

set_option maxRecDepth 65536 in
theorem hostOps3_agg (W : Valuation τ sig (Elt Ideal)) :
    StableHlo.after (hostOps3 (F := Ideal)) W (Proc.devRef .tc main_v69)
      = Cert.Spec.aggOf (F := Ideal) (W (Proc.devRef .tc main_v1)) (W (Proc.devRef .tc main_v3))
          (W (Proc.devRef .tc main_v26)) (W (Proc.devRef .tc main_v27)) (W (Proc.devRef .tc main_v50)) := by
  after_results_simp
  rfl

theorem hostOps3_bias (W : Valuation τ sig (Elt Ideal)) :
    StableHlo.after (hostOps3 (F := Ideal)) W (Proc.devRef .tc main_v70)
      = broadcastInDim Cert.ReferenceIdeal.S1x128 ![1] Cert.ReferenceIdeal.Facts₀.bcast_S128_S1x128_1
          (W (Proc.devRef .tc main_arg6)) :=
  (show _ = shapeCast S1x128 (W (Proc.devRef .tc main_arg6)) shapeCasts_S128_S1x128 by after_results; rfl).trans (shapeCast_row_eq_broadcastInDim _ _ _)

set_option maxRecDepth 65536 in
theorem hostOps5_agg (W : Valuation τ sig (Elt Ideal)) :
    StableHlo.after (hostOps5 (F := Ideal)) W (Proc.devRef .tc main_v91)
      = Cert.Spec.aggOf (F := Ideal) (W (Proc.devRef .tc main_v1)) (W (Proc.devRef .tc main_v3))
          (W (Proc.devRef .tc main_v26)) (W (Proc.devRef .tc main_v27)) (W (Proc.devRef .tc main_v72)) := by
  after_results_simp
  rfl

theorem hostOps5_bias (W : Valuation τ sig (Elt Ideal)) :
    StableHlo.after (hostOps5 (F := Ideal)) W (Proc.devRef .tc main_v92)
      = broadcastInDim Cert.ReferenceIdeal.S1x128 ![1] Cert.ReferenceIdeal.Facts₀.bcast_S128_S1x128_1
          (W (Proc.devRef .tc main_arg6)) :=
  (show _ = shapeCast S1x128 (W (Proc.devRef .tc main_arg6)) shapeCasts_S128_S1x128 by after_results; rfl).trans (shapeCast_row_eq_broadcastInDim _ _ _)

set_option maxRecDepth 65536 in
theorem hostOps7_agg (W : Valuation τ sig (Elt Ideal)) :
    StableHlo.after (hostOps7 (F := Ideal)) W (Proc.devRef .tc main_v113)
      = Cert.Spec.aggOf (F := Ideal) (W (Proc.devRef .tc main_v1)) (W (Proc.devRef .tc main_v3))
          (W (Proc.devRef .tc main_v26)) (W (Proc.devRef .tc main_v27)) (W (Proc.devRef .tc main_v94)) := by
  after_results_simp
  rfl

theorem hostOps7_bias (W : Valuation τ sig (Elt Ideal)) :
    StableHlo.after (hostOps7 (F := Ideal)) W (Proc.devRef .tc main_v114)
      = broadcastInDim Cert.ReferenceIdeal.S1x128 ![1] Cert.ReferenceIdeal.Facts₀.bcast_S128_S1x128_1
          (W (Proc.devRef .tc main_arg6)) :=
  (show _ = shapeCast S1x128 (W (Proc.devRef .tc main_arg6)) shapeCasts_S128_S1x128 by after_results; rfl).trans (shapeCast_row_eq_broadcastInDim _ _ _)

theorem hostOps8_batch (W : Valuation τ sig (Elt Ideal)) :
    StableHlo.after (hostOps8 (F := Ideal)) W (Proc.devRef .tc main_v116)
      = broadcastInDim Cert.ReferenceIdeal.S100000x1 ![0] Cert.ReferenceIdeal.Facts₀.bcast_S100000_S100000x1_0
          (W (Proc.devRef .tc main_arg2)) :=
  (show _ = shapeCast S100000x1 (W (Proc.devRef .tc main_arg2)) shapeCasts_S100000_S100000x1 by after_results; rfl).trans (shapeCast_col_eq_broadcastInDim _ _ _)

theorem hostOps8_bias (W : Valuation τ sig (Elt Ideal)) :
    StableHlo.after (hostOps8 (F := Ideal)) W (Proc.devRef .tc main_v117)
      = broadcastInDim Cert.ReferenceIdeal.S1x10 ![1] Cert.ReferenceIdeal.Facts₀.bcast_S10_S1x10_1
          (W (Proc.devRef .tc main_arg8)) :=
  (show _ = shapeCast S1x10 (W (Proc.devRef .tc main_arg8)) shapeCasts_S10_S1x10 by after_results; rfl).trans (shapeCast_row_eq_broadcastInDim _ _ _)

end Cert.KernelIdeal.Gen

end
-- ==== Proof.KI.Value.lean ====
import proofs.«404363_j60902636257457_1_alg».proof.Proof.Gen.KernelIdeal.Regions
import proofs.«404363_j60902636257457_1_alg».proof.Proof.KI.HostVal
import proofs.«404363_j60902636257457_1_alg».proof.Proof.Spec

set_option maxRecDepth 4096

noncomputable section

namespace Cert.KernelIdeal.Gen

open Idealize.ShloMosaic Idealize.ShloMosaic.TcCoe Idealize.ShloMosaic.StableHlo Cert.KernelIdeal

variable (m : (ℓ : Loc nD τ sig) → Buf (Elt Ideal) ℓ) (outs : Outs (F := Ideal)) (c : Dev nD)

theorem V2_out : V2 m outs c main_v28 = outs 2 main_v28 c := Function.update_self _ _ _
theorem V4_out : V4 m outs c main_v49 = outs 4 main_v49 c := Function.update_self _ _ _
theorem V5_out : V5 m outs c main_v50 = outs 5 main_v50 c := Function.update_self _ _ _
theorem V7_out : V7 m outs c main_v71 = outs 7 main_v71 c := Function.update_self _ _ _
theorem V8_out : V8 m outs c main_v72 = outs 8 main_v72 c := Function.update_self _ _ _
theorem V10_out : V10 m outs c main_v93 = outs 10 main_v93 c := Function.update_self _ _ _
theorem V11_out : V11 m outs c main_v94 = outs 11 main_v94 c := Function.update_self _ _ _
theorem V13_out : V13 m outs c main_v115 = outs 13 main_v115 c := Function.update_self _ _ _
theorem V15_out : V15 m outs c main_v118 = outs 15 main_v118 c := Function.update_self _ _ _

-- On a buffer no item after the first stretch writes, every valuation the walk reads agrees with the first.
structure Same (r : Ref sig .tc) : Prop where
  v2 : V2 m outs c r = V1 m c r
  v4 : V4 m outs c r = V1 m c r
  v5 : V5 m outs c r = V1 m c r
  v7 : V7 m outs c r = V1 m c r
  v8 : V8 m outs c r = V1 m c r
  v10 : V10 m outs c r = V1 m c r
  v11 : V11 m outs c r = V1 m c r
  v13 : V13 m outs c r = V1 m c r
  v14 : V14 m outs c r = V1 m c r

theorem same (r : Ref sig .tc)
    (h : r ∉ ([main_v28] : List (Ref sig .tc)) ∧ r ∉ hostOps1_W ∧ r ∉ ([main_v49] : List (Ref sig .tc)) ∧ r ∉ ([main_v50] : List (Ref sig .tc)) ∧ r ∉ hostOps3_W ∧ r ∉ ([main_v71] : List (Ref sig .tc)) ∧ r ∉ ([main_v72] : List (Ref sig .tc)) ∧ r ∉ hostOps5_W ∧ r ∉ ([main_v93] : List (Ref sig .tc)) ∧ r ∉ ([main_v94] : List (Ref sig .tc)) ∧ r ∉ hostOps7_W ∧ r ∉ ([main_v115] : List (Ref sig .tc)) ∧ r ∉ hostOps8_W := by decide) :
    Same m outs c r := by
  obtain ⟨h2, h3, h4, h5, h6, h7, h8, h9, h10, h11, h12, h13, h14⟩ := h
  have e2 := V2_of m outs c r h2
  have e4 := (V4_of m outs c r h4).trans ((V3_of m outs c r h3).trans e2)
  have e5 := (V5_of m outs c r h5).trans e4
  have e7 := (V7_of m outs c r h7).trans ((V6_of m outs c r h6).trans e5)
  have e8 := (V8_of m outs c r h8).trans e7
  have e10 := (V10_of m outs c r h10).trans ((V9_of m outs c r h9).trans e8)
  have e11 := (V11_of m outs c r h11).trans e10
  have e13 := (V13_of m outs c r h13).trans ((V12_of m outs c r h12).trans e11)
  exact ⟨e2, e4, e5, e7, e8, e10, e11, e13, (V14_of m outs c r h14).trans e13⟩

variable [Cert.ReferenceIdeal.Facts]

theorem V1_src : V1 m c main_v1 = Cert.Spec.src (m ((c : Thread nD τ).loc main_arg1)) := hostOps0_src (V0 m c)
theorem V1_dst : V1 m c main_v3 = Cert.Spec.dst (m ((c : Thread nD τ).loc main_arg1)) := hostOps0_dst (V0 m c)
theorem V1_norm : V1 m c main_v26 = Cert.Spec.norm (F := Ideal) (m ((c : Thread nD τ).loc main_arg1)) := hostOps0_norm (V0 m c)
theorem V1_dinv2 : V1 m c main_v27 = mulf (Cert.Spec.dinv (F := Ideal) (m ((c : Thread nD τ).loc main_arg1))) (Cert.Spec.dinv (F := Ideal) (m ((c : Thread nD τ).loc main_arg1))) := hostOps0_dinv2 (V0 m c)

-- Substituting the parts into one another is the definition of a layer.
theorem layer_of {ei : IVec Cert.ReferenceIdeal.S2x1600000 32} {x x' : FVec Ideal Cert.ReferenceIdeal.S100000x128 .f32}
    {W W' : FVec Ideal Cert.ReferenceIdeal.S128x128 .f32} {b b' : FVec Ideal Cert.ReferenceIdeal.S128 .f32}
    {s d : IVec Cert.ReferenceIdeal.S1600000 32} {nrm : FVec Ideal Cert.ReferenceIdeal.S1600000 .f32}
    {d2 : FVec Ideal Cert.ReferenceIdeal.S100000 .f32} {lo va out : FVec Ideal Cert.ReferenceIdeal.S100000x128 .f32}
    {vb : FVec Ideal Cert.ReferenceIdeal.S1x128 .f32}
    (hs : s = Cert.Spec.src ei) (hd : d = Cert.Spec.dst ei) (hn : nrm = Cert.Spec.norm (F := Ideal) ei)
    (h2 : d2 = mulf (Cert.Spec.dinv (F := Ideal) ei) (Cert.Spec.dinv (F := Ideal) ei))
    (hlo : lo = Cert.Spec.lin (F := Ideal) x' W') (hx : x' = x) (hW : W' = W)
    (ha : va = Cert.Spec.aggOf (F := Ideal) s d nrm d2 lo)
    (hb : vb = broadcastInDim Cert.ReferenceIdeal.S1x128 ![1] Cert.ReferenceIdeal.Facts₀.bcast_S128_S1x128_1 b') (hb' : b' = b)
    (ho : out = Cert.Spec.actRow (F := Ideal) va vb) : out = Cert.Spec.layer (F := Ideal) ei x W b := by
  subst_vars
  rfl

theorem value_of
    (h0 : outs 2 main_v28 c = Cert.Spec.lin (F := Ideal) (V1 m c main_arg0) (V1 m c main_arg3))
    (h1 : outs 4 main_v49 c = Cert.Spec.actRow (F := Ideal) (V3 m outs c main_v47) (V3 m outs c main_v48))
    (h2 : outs 5 main_v50 c = Cert.Spec.lin (F := Ideal) (V4 m outs c main_v49) (V4 m outs c main_arg5))
    (h3 : outs 7 main_v71 c = Cert.Spec.actRow (F := Ideal) (V6 m outs c main_v69) (V6 m outs c main_v70))
    (h4 : outs 8 main_v72 c = Cert.Spec.lin (F := Ideal) (V7 m outs c main_v71) (V7 m outs c main_arg5))
    (h5 : outs 10 main_v93 c = Cert.Spec.actRow (F := Ideal) (V9 m outs c main_v91) (V9 m outs c main_v92))
    (h6 : outs 11 main_v94 c = Cert.Spec.lin (F := Ideal) (V10 m outs c main_v93) (V10 m outs c main_arg5))
    (h7 : outs 13 main_v115 c = Cert.Spec.actRow (F := Ideal) (V12 m outs c main_v113) (V12 m outs c main_v114))
    (h8 : outs 15 main_v118 c = Cert.Spec.headRow (F := Ideal) (V14 m outs c main_v116) (V14 m outs c main_v115)
            (V14 m outs c main_arg7) (V14 m outs c main_v117)) :
    V15 m outs c main_v118
      = Cert.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  have S1 := same m outs c main_v1
  have S3 := same m outs c main_v3
  have S26 := same m outs c main_v26
  have S27 := same m outs c main_v27
  have A5 := same m outs c main_arg5
  have A6 := same m outs c main_arg6
  have l1 := layer_of (S1.v2.trans (V1_src m c)) (S3.v2.trans (V1_dst m c)) (S26.v2.trans (V1_norm m c)) (S27.v2.trans (V1_dinv2 m c))
    ((V2_out m outs c).trans h0) (V1_of m c main_arg0 (by decide)) (V1_of m c main_arg3 (by decide))
    (hostOps1_agg (V2 m outs c)) (hostOps1_bias (V2 m outs c)) ((same m outs c main_arg4).v2.trans (V1_of m c main_arg4 (by decide))) ((V4_out m outs c).trans h1)
  have l2 := layer_of (S1.v5.trans (V1_src m c)) (S3.v5.trans (V1_dst m c)) (S26.v5.trans (V1_norm m c)) (S27.v5.trans (V1_dinv2 m c))
    ((V5_out m outs c).trans h2) l1 (A5.v4.trans (V1_of m c main_arg5 (by decide)))
    (hostOps3_agg (V5 m outs c)) (hostOps3_bias (V5 m outs c)) (A6.v5.trans (V1_of m c main_arg6 (by decide))) ((V7_out m outs c).trans h3)
  have l3 := layer_of (S1.v8.trans (V1_src m c)) (S3.v8.trans (V1_dst m c)) (S26.v8.trans (V1_norm m c)) (S27.v8.trans (V1_dinv2 m c))
    ((V8_out m outs c).trans h4) l2 (A5.v7.trans (V1_of m c main_arg5 (by decide)))
    (hostOps5_agg (V8 m outs c)) (hostOps5_bias (V8 m outs c)) (A6.v8.trans (V1_of m c main_arg6 (by decide))) ((V10_out m outs c).trans h5)
  have l4 := layer_of (S1.v11.trans (V1_src m c)) (S3.v11.trans (V1_dst m c)) (S26.v11.trans (V1_norm m c)) (S27.v11.trans (V1_dinv2 m c))
    ((V11_out m outs c).trans h6) l3 (A5.v10.trans (V1_of m c main_arg5 (by decide)))
    (hostOps7_agg (V11 m outs c)) (hostOps7_bias (V11 m outs c)) (A6.v11.trans (V1_of m c main_arg6 (by decide))) ((V13_out m outs c).trans h7)
  have c8 : V14 m outs c main_v116 = _ := hostOps8_batch (V13 m outs c)
  have b8 : V14 m outs c main_v117 = _ := hostOps8_bias (V13 m outs c)
  refine (V15_out m outs c).trans ?_
  rw [h8, c8, b8, (V14_of m outs c main_v115 (by decide)).trans l4,
    (same m outs c main_arg2).v13.trans (V1_of m c main_arg2 (by decide)), (same m outs c main_arg8).v13.trans (V1_of m c main_arg8 (by decide)),
    (same m outs c main_arg7).v14.trans (V1_of m c main_arg7 (by decide))]
  rfl

end Cert.KernelIdeal.Gen

end
-- ==== Proof.KI.LinVal.lean ====
import proofs.«404363_j60902636257457_1_alg».proof.Proof.Gen.KernelIdeal
import proofs.«404363_j60902636257457_1_alg».proof.Proof.Gen.KernelIdeal.Skeleton
import proofs.«404363_j60902636257457_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe Idealize.SL.Sem
open Idealize.ShloMosaic.ValueIdx
open scoped BigOperators

-- Re-indexing the sum over a one-axis contraction shape by that axis' coordinate.
theorem sum_contr1 {sl sr so : Shape} {φ₁ φ₂ : FTy} (D : DotDims sl sr so) (n : ℕ) (hr : D.contr.rank = 1)
    (hs : D.contr.size ⟨0, by omega⟩ = n) (L : FVec Ideal sl φ₁) (R : FVec Ideal sr φ₂) (j : so.Idx)
    (l : Fin n → sl.Idx) (r : Fin n → sr.Idx)
    (hl : ∀ q a, (D.lhsIdx j q a).val = (l (ValueIdx.contrEquiv1 D n hr hs q) a).val := by intro q a; match a with | ⟨0, _⟩ => rfl | ⟨1, _⟩ => rfl)
    (hR : ∀ q a, (D.rhsIdx j q a).val = (r (ValueIdx.contrEquiv1 D n hr hs q) a).val := by intro q a; match a with | ⟨0, _⟩ => rfl | ⟨1, _⟩ => rfl) :
    ∑ q : D.contr.Idx, L (D.lhsIdx j q) * R (D.rhsIdx j q) = ∑ k : Fin n, L (l k) * R (r k) := by
  rw [← Equiv.sum_comp (ValueIdx.contrEquiv1 D n hr hs)]
  exact Finset.sum_congr rfl fun q _ => by
    rw [show D.lhsIdx j q = l _ from funext fun a => Fin.ext (hl q a), show D.rhsIdx j q = r _ from funext fun a => Fin.ext (hR q a)]

abbrev tileL (j : S2000x128.Idx) (k : Fin 128) : S2000x128.Idx := fun a => match a with
  | ⟨0, _⟩ => ⟨(j 0).val, (j 0).isLt⟩
  | ⟨1, _⟩ => ⟨k.val, k.isLt⟩

abbrev tileR (j : S2000x128.Idx) (k : Fin 128) : S128x128.Idx := fun a => match a with
  | ⟨0, _⟩ => ⟨k.val, k.isLt⟩
  | ⟨1, _⟩ => ⟨(j 1).val, (j 1).isLt⟩

theorem tile_matmul_apply {φ₁ φ₂ : FTy} (a : FVec Ideal S2000x128 φ₁) (b : FVec Ideal S128x128 φ₂) (j : S2000x128.Idx) :
    FloatOps.matmul dot_S2000x128_S128x128_S2000x128_1_0_0_1_n_n none a b (constant S2000x128 .f32 0x00000000#32) j
      = ∑ k : Fin 128, a (tileL j k) * b (tileR j k) := by
  rw [Ideal.matmul_constant_zero_apply]
  exact sum_contr1 _ 128 rfl rfl a b j (tileL j) (tileR j)

section Spec
variable [Cert.ReferenceIdeal.Facts]
open Cert.ReferenceIdeal.Facts₀ Cert.ReferenceIdeal.Facts

abbrev arrL (i : S100000x128.Idx) (k : Fin 128) : S100000x128.Idx := fun a => match a with
  | ⟨0, _⟩ => ⟨(i 0).val, (i 0).isLt⟩
  | ⟨1, _⟩ => ⟨k.val, k.isLt⟩

abbrev arrR (i : S100000x128.Idx) (k : Fin 128) : S128x128.Idx := fun a => match a with
  | ⟨0, _⟩ => ⟨k.val, k.isLt⟩
  | ⟨1, _⟩ => ⟨(i 1).val, (i 1).isLt⟩

theorem lin_apply (h : FVec Ideal Cert.ReferenceIdeal.S100000x128 .f32) (W : FVec Ideal Cert.ReferenceIdeal.S128x128 .f32) (i : S100000x128.Idx) :
    Cert.Spec.lin (F := Ideal) h W i = ∑ k : Fin 128, h (arrL i k) * W (arrR i k) := by
  unfold Cert.Spec.lin
  simp only [Host.dotGeneral]
  rw [Ideal.dotGeneral_apply]
  exact sum_contr1 _ 128 rfl rfl h W i (arrL i) (arrR i)
end Spec

-- The block index maps that all eight row-tiled regions share.
def RowTiled {N : ℕ} (i0 i1 i2 : Fin N → Fin 2 → ℕ) : Prop :=
  ∀ t, i0 t 0 = t.val ∧ i0 t 1 = 0 ∧ i1 t 0 = 0 ∧ i1 t 1 = 0 ∧ i2 t 0 = t.val ∧ i2 t 1 = 0

-- Row r lies in row block r / 2000.
theorem rows_cover {N : ℕ} (hN : N = 50) (ix : Fin N → Fin 2 → ℕ) (h : ∀ t, ix t 0 = t.val ∧ ix t 1 = 0)
    (i : S100000x128.Idx) :
    ∃ t, ∀ a : Fin 2, ix t a * S2000x128.size a ≤ (i a).val ∧ (i a).val < ix t a * S2000x128.size a + S2000x128.size a := by
  subst hN
  have hi0 : (i 0).val < 100000 := (i 0).isLt
  have hi1 : (i 1).val < 128 := (i 1).isLt
  obtain ⟨e0, e1⟩ := h ⟨(i 0).val / 2000, by omega⟩
  refine ⟨⟨(i 0).val / 2000, by omega⟩, fun a => ?_⟩
  match a with
  | ⟨0, _⟩ =>
    show ix _ 0 * 2000 ≤ (i 0).val ∧ (i 0).val < ix _ 0 * 2000 + 2000
    rw [e0]; show (i 0).val / 2000 * 2000 ≤ (i 0).val ∧ (i 0).val < (i 0).val / 2000 * 2000 + 2000; omega
  | ⟨1, _⟩ =>
    show ix _ 1 * 128 ≤ (i 1).val ∧ (i 1).val < ix _ 1 * 128 + 128
    rw [e1]; omega

section
variable [Cert.ReferenceIdeal.Facts]

-- Both sides are the sum over the 128 shared coordinates, and the tile's entries are the arrays' at the same row and column.
theorem lin_blk (A : FVec Ideal Cert.ReferenceIdeal.S100000x128 .f32) (W : FVec Ideal Cert.ReferenceIdeal.S128x128 .f32)
    (e0 e2 : S2000x128.Idx → S100000x128.Idx) (e1 : S128x128.Idx → S128x128.Idx) (i0 i1 i2 : Fin 2 → ℕ) (q : ℕ)
    (h0 : ∀ y a, (e0 y a).val = i0 a * S2000x128.size a + (y a).val)
    (h1 : ∀ y a, (e1 y a).val = i1 a * S128x128.size a + (y a).val)
    (h2 : ∀ y a, (e2 y a).val = i2 a * S2000x128.size a + (y a).val)
    (hi : i0 0 = q ∧ i0 1 = 0 ∧ i1 0 = 0 ∧ i1 1 = 0 ∧ i2 0 = q ∧ i2 1 = 0) (j : S2000x128.Idx) :
    ∑ k : Fin 128, A (e0 (tileL j k)) * W (e1 (tileR j k)) = Cert.Spec.lin (F := Ideal) A W (e2 j) := by
  obtain ⟨a0, a1, b0, b1, c0, c1⟩ := hi
  rw [lin_apply]
  refine Finset.sum_congr rfl fun k _ => ?_
  have hA : e0 (tileL j k) = arrL (e2 j) k := funext fun x => Fin.ext (by
    match x with
    | ⟨0, _⟩ =>
      have p : (e0 (tileL j k) 0).val = i0 0 * 2000 + (j 0).val := h0 _ 0
      have r : (e2 j 0).val = i2 0 * 2000 + (j 0).val := h2 j 0
      show (e0 (tileL j k) 0).val = (e2 j 0).val
      omega
    | ⟨1, _⟩ =>
      have p : (e0 (tileL j k) 1).val = i0 1 * 128 + k.val := h0 _ 1
      show (e0 (tileL j k) 1).val = k.val
      omega)
  have hW : e1 (tileR j k) = arrR (e2 j) k := funext fun x => Fin.ext (by
    match x with
    | ⟨0, _⟩ =>
      have p : (e1 (tileR j k) 0).val = i1 0 * 128 + k.val := h1 _ 0
      show (e1 (tileR j k) 0).val = k.val
      omega
    | ⟨1, _⟩ =>
      have p : (e1 (tileR j k) 1).val = i1 1 * 128 + (j 1).val := h1 _ 1
      have r : (e2 j 1).val = i2 1 * 128 + (j 1).val := h2 j 1
      show (e1 (tileR j k) 1).val = (e2 j 1).val
      omega)
  rw [hA, hW]

end

section
-- Over the extended reals the roundings are the identity and the product accumulated from zero is the sum.
theorem lin0_pay (x0 : Vec Ideal S2000x128 .f32) (x1 : Vec Ideal S128x128 .f32) (j : S2000x128.Idx) :
    k0_pay1 (F := Ideal) x0 x1 j = ∑ k : Fin 128, x0 (tileL j k) * x1 (tileR j k) := by
  unfold k0_pay1
  exact tile_matmul_apply (φ₁ := .bf16) (φ₂ := .bf16) x0 x1 j

theorem lin2_pay (x0 : Vec Ideal S2000x128 .bf16) (x1 : Vec Ideal S128x128 .f32) (j : S2000x128.Idx) :
    k2_pay1 (F := Ideal) x0 x1 j = ∑ k : Fin 128, x0 (tileL j k) * x1 (tileR j k) := by
  unfold k2_pay1
  rw [shapeCast_self]
  exact tile_matmul_apply (φ₁ := .bf16) (φ₂ := .bf16) x0 x1 j
end

section
variable [Cert.ReferenceIdeal.Facts]

-- The two casts are to the same shape, the row is spread over the tile's rows, and the narrowing is the identity.
theorem pay1_at (x0 : Vec Ideal S2000x128 .f32) (x1 : Vec Ideal S1x128 .f32) (p : Fin 2000) (q : Fin 128) :
    (k1_pay1 x0 x1 (ix2 p q) : EReal) = max ((x0 (ix2 p q) : EReal) + (x1 (ix2 (0 : Fin 1) q) : EReal)) (Ideal.ofBits .f32 0x00000000#32) := by
  unfold k1_pay1
  rw [truncf_apply, maximumf_apply, addf_apply, broadcast_apply, shapeCast_self, shapeCast_self]
  rw [broadcastTo_1b_ab_apply]
  rfl

theorem rowSpread_at (b2 : FVec Ideal Cert.ReferenceIdeal.S1x128 .f32) (r : Fin 100000) (q : Fin 128) :
    (broadcastInDim Cert.ReferenceIdeal.S100000x128 ![0, 1] Cert.ReferenceIdeal.Facts₀.bcast_S1x128_S100000x128_0_1 b2 (ix2 r q) : EReal)
      = b2 (ix2 (0 : Fin 1) q) := by
  refine broadcastInDim_apply _ _ b2 (ix2 r q) (ix2 (0 : Fin 1) q) fun ax => ?_
  match ax with
  | ⟨0, _⟩ => rfl
  | ⟨1, _⟩ => rfl

theorem actRow_at (a : FVec Ideal Cert.ReferenceIdeal.S100000x128 .f32) (b2 : FVec Ideal Cert.ReferenceIdeal.S1x128 .f32) (r : Fin 100000) (q : Fin 128) :
    (Cert.Spec.actRow a b2 (ix2 r q) : EReal) = max ((a (ix2 r q) : EReal) + (b2 (ix2 (0 : Fin 1) q) : EReal)) (Ideal.ofBits .f32 0x00000000#32) := by
  unfold Cert.Spec.actRow
  rw [maximumf_apply, addf_apply, rowSpread_at]
  rfl

-- Entry by entry both sides are max (a + b) 0 at the same row and column.
theorem act_blk (A : FVec Ideal Cert.ReferenceIdeal.S100000x128 .f32) (B : FVec Ideal Cert.ReferenceIdeal.S1x128 .f32)
    (x0 : Vec Ideal S2000x128 .f32) (x1 : Vec Ideal S1x128 .f32)
    (e0 e2 : S2000x128.Idx → S100000x128.Idx) (e1 : S1x128.Idx → S1x128.Idx) (i0 i1 i2 : Fin 2 → ℕ) (q : ℕ)
    (hx0 : ∀ y, (x0 y : EReal) = A (e0 y)) (hx1 : ∀ y, (x1 y : EReal) = B (e1 y))
    (h0 : ∀ y a, (e0 y a).val = i0 a * S2000x128.size a + (y a).val)
    (h1 : ∀ y a, (e1 y a).val = i1 a * S1x128.size a + (y a).val)
    (h2 : ∀ y a, (e2 y a).val = i2 a * S2000x128.size a + (y a).val)
    (hi : i0 0 = q ∧ i0 1 = 0 ∧ i1 0 = 0 ∧ i1 1 = 0 ∧ i2 0 = q ∧ i2 1 = 0) (j : S2000x128.Idx) :
    (k1_pay1 x0 x1 j : EReal) = Cert.Spec.actRow A B (e2 j) := by
  obtain ⟨a0, a1, b0, b1, c0, c1⟩ := hi
  obtain ⟨p, s, rfl⟩ : ∃ (p : Fin 2000) (s : Fin 128), j = ix2 p s := ⟨j 0, j 1, eq_ix2 j⟩
  obtain ⟨r, s', hE⟩ : ∃ (r : Fin 100000) (s' : Fin 128), e2 (ix2 p s) = ix2 r s' := ⟨e2 _ 0, e2 _ 1, eq_ix2 _⟩
  have v0 : r.val = i2 0 * 2000 + p.val := (congrArg (fun z => (z 0).val) hE).symm.trans (h2 (ix2 p s) 0)
  have v1 : s'.val = i2 1 * 128 + s.val := (congrArg (fun z => (z 1).val) hE).symm.trans (h2 (ix2 p s) 1)
  have hA : e0 (ix2 p s) = ix2 r s' := funext fun x => Fin.ext (by
    match x with
    | ⟨0, _⟩ =>
      have u : (e0 (ix2 p s) 0).val = i0 0 * 2000 + p.val := h0 _ 0
      show (e0 (ix2 p s) 0).val = r.val
      omega
    | ⟨1, _⟩ =>
      have u : (e0 (ix2 p s) 1).val = i0 1 * 128 + s.val := h0 _ 1
      show (e0 (ix2 p s) 1).val = s'.val
      omega)
  have hB : e1 (ix2 (0 : Fin 1) s) = ix2 (0 : Fin 1) s' := funext fun x => Fin.ext (by
    match x with
    | ⟨0, _⟩ =>
      have u : (e1 (ix2 (0 : Fin 1) s) 0).val = i1 0 * 1 + 0 := h1 _ 0
      show (e1 (ix2 (0 : Fin 1) s) 0).val = 0
      omega
    | ⟨1, _⟩ =>
      have u : (e1 (ix2 (0 : Fin 1) s) 1).val = i1 1 * 128 + s.val := h1 _ 1
      show (e1 (ix2 (0 : Fin 1) s) 1).val = s'.val
      omega)
  rw [pay1_at, hx0, hx1, hE, actRow_at, hA, hB]

end

end Cert.KernelIdeal.Gen

end
-- ==== Proof.KI.Reg0Val.lean ====
import proofs.«404363_j60902636257457_1_alg».proof.Proof.KI.Reg0
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx0 : RowTiled win0_0.index win0_1.index win0_2.index :=
  (by decide +kernel : ∀ t : Fin grid0.N, _)

theorem final0 (c : Dev nD) : (dat0 (F := Ideal) V c).arrAt 2 cfg0.N
    = Cert.Spec.lin (F := Ideal) (V c (Pipeline.arrRef spec0 0)) (V c (Pipeline.arrRef spec0 1)) :=
  (dat0 (F := Ideal) V c).arrAt_eq_of_cover 2 _ (fun t _ => by
    show (cfg0.win 2).cut (grid0.coords t) ((dat0 V c).after 2 t) = _
    rw [after0_2]
    funext j
    exact (lin0_pay (iblk0 V c 0 t) (iblk0 V c 1 t) _).trans
      (lin_blk (V c (Pipeline.arrRef spec0 0)) (V c (Pipeline.arrRef spec0 1))
        ((cfg0.win 0).blk t).view.emb ((cfg0.win 2).blk t).view.emb ((cfg0.win 1).blk t).view.emb _ _ _ t.val
        (fun y a => win0_0.rect_emb_val t y a) (fun y a => win0_1.rect_emb_val t y a)
        (fun y a => win0_2.rect_emb_val t y a) (idx0 t) j))
    fun i => by
      obtain ⟨t, h⟩ := rows_cover (by decide) win0_2.index (fun t => (idx0 t).2.2.2.2) i
      refine ⟨t, flush0_2 t, ?_⟩
      rw [show ((cfg0.win 2).blk t).view.set = (win0_2.rect t).set from View.set_slice_whole _ _, Rect.mem_set_unit]
      exact h

end Cert.KernelIdeal.Gen

end
-- ==== Proof.KI.Reg1Val.lean ====
import proofs.«404363_j60902636257457_1_alg».proof.Proof.KI.Reg1
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx1 : RowTiled win1_0.index win1_1.index win1_2.index :=
  (by decide +kernel : ∀ t : Fin grid1.N, _)

theorem final1 (c : Dev nD) : (dat1 (F := Ideal) V c).arrAt 2 cfg1.N
    = Cert.Spec.actRow (F := Ideal) (V c (Pipeline.arrRef spec1 0)) (V c (Pipeline.arrRef spec1 1)) :=
  (dat1 (F := Ideal) V c).arrAt_eq_of_cover 2 _ (fun t _ => by
    show (cfg1.win 2).cut (grid1.coords t) ((dat1 V c).after 2 t) = _
    rw [after1_2]
    funext j
    exact act_blk (V c (Pipeline.arrRef spec1 0)) (V c (Pipeline.arrRef spec1 1)) (iblk1 V c 0 t) (iblk1 V c 1 t)
      ((cfg1.win 0).blk t).view.emb ((cfg1.win 2).blk t).view.emb ((cfg1.win 1).blk t).view.emb _ _ _ t.val
      (fun _ => rfl) (fun _ => rfl)
      (fun y a => win1_0.rect_emb_val t y a) (fun y a => win1_1.rect_emb_val t y a)
      (fun y a => win1_2.rect_emb_val t y a) (idx1 t) j)
    fun i => by
      obtain ⟨t, h⟩ := rows_cover (by decide) win1_2.index (fun t => (idx1 t).2.2.2.2) i
      refine ⟨t, flush1_2 t, ?_⟩
      rw [show ((cfg1.win 2).blk t).view.set = (win1_2.rect t).set from View.set_slice_whole _ _, Rect.mem_set_unit]
      exact h

end Cert.KernelIdeal.Gen

end
-- ==== Proof.KI.Reg2Val.lean ====
import proofs.«404363_j60902636257457_1_alg».proof.Proof.KI.Reg2
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx2 : RowTiled win2_0.index win2_1.index win2_2.index :=
  (by decide +kernel : ∀ t : Fin grid2.N, _)

theorem final2 (c : Dev nD) : (dat2 (F := Ideal) V c).arrAt 2 cfg2.N
    = Cert.Spec.lin (F := Ideal) (V c (Pipeline.arrRef spec2 0)) (V c (Pipeline.arrRef spec2 1)) :=
  (dat2 (F := Ideal) V c).arrAt_eq_of_cover 2 _ (fun t _ => by
    show (cfg2.win 2).cut (grid2.coords t) ((dat2 V c).after 2 t) = _
    rw [after2_2]
    funext j
    exact (lin2_pay (iblk2 V c 0 t) (iblk2 V c 1 t) _).trans
      (lin_blk (V c (Pipeline.arrRef spec2 0)) (V c (Pipeline.arrRef spec2 1))
        ((cfg2.win 0).blk t).view.emb ((cfg2.win 2).blk t).view.emb ((cfg2.win 1).blk t).view.emb _ _ _ t.val
        (fun y a => win2_0.rect_emb_val t y a) (fun y a => win2_1.rect_emb_val t y a)
        (fun y a => win2_2.rect_emb_val t y a) (idx2 t) j))
    fun i => by
      obtain ⟨t, h⟩ := rows_cover (by decide) win2_2.index (fun t => (idx2 t).2.2.2.2) i
      refine ⟨t, flush2_2 t, ?_⟩
      rw [show ((cfg2.win 2).blk t).view.set = (win2_2.rect t).set from View.set_slice_whole _ _, Rect.mem_set_unit]
      exact h

end Cert.KernelIdeal.Gen

end
-- ==== Proof.KI.Reg3Val.lean ====
import proofs.«404363_j60902636257457_1_alg».proof.Proof.KI.Reg3
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx3 : RowTiled win3_0.index win3_1.index win3_2.index :=
  (by decide +kernel : ∀ t : Fin grid3.N, _)

theorem final3 (c : Dev nD) : (dat3 (F := Ideal) V c).arrAt 2 cfg3.N
    = Cert.Spec.actRow (F := Ideal) (V c (Pipeline.arrRef spec3 0)) (V c (Pipeline.arrRef spec3 1)) :=
  (dat3 (F := Ideal) V c).arrAt_eq_of_cover 2 _ (fun t _ => by
    show (cfg3.win 2).cut (grid3.coords t) ((dat3 V c).after 2 t) = _
    rw [after3_2]
    funext j
    exact act_blk (V c (Pipeline.arrRef spec3 0)) (V c (Pipeline.arrRef spec3 1)) (iblk3 V c 0 t) (iblk3 V c 1 t)
      ((cfg3.win 0).blk t).view.emb ((cfg3.win 2).blk t).view.emb ((cfg3.win 1).blk t).view.emb _ _ _ t.val
      (fun _ => rfl) (fun _ => rfl)
      (fun y a => win3_0.rect_emb_val t y a) (fun y a => win3_1.rect_emb_val t y a)
      (fun y a => win3_2.rect_emb_val t y a) (idx3 t) j)
    fun i => by
      obtain ⟨t, h⟩ := rows_cover (by decide) win3_2.index (fun t => (idx3 t).2.2.2.2) i
      refine ⟨t, flush3_2 t, ?_⟩
      rw [show ((cfg3.win 2).blk t).view.set = (win3_2.rect t).set from View.set_slice_whole _ _, Rect.mem_set_unit]
      exact h

end Cert.KernelIdeal.Gen

end
-- ==== Proof.KI.Reg4Val.lean ====
import proofs.«404363_j60902636257457_1_alg».proof.Proof.KI.Reg4
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx4 : RowTiled win4_0.index win4_1.index win4_2.index :=
  (by decide +kernel : ∀ t : Fin grid4.N, _)

theorem final4 (c : Dev nD) : (dat4 (F := Ideal) V c).arrAt 2 cfg4.N
    = Cert.Spec.lin (F := Ideal) (V c (Pipeline.arrRef spec4 0)) (V c (Pipeline.arrRef spec4 1)) :=
  (dat4 (F := Ideal) V c).arrAt_eq_of_cover 2 _ (fun t _ => by
    show (cfg4.win 2).cut (grid4.coords t) ((dat4 V c).after 2 t) = _
    rw [after4_2]
    funext j
    exact (lin2_pay (iblk4 V c 0 t) (iblk4 V c 1 t) _).trans
      (lin_blk (V c (Pipeline.arrRef spec4 0)) (V c (Pipeline.arrRef spec4 1))
        ((cfg4.win 0).blk t).view.emb ((cfg4.win 2).blk t).view.emb ((cfg4.win 1).blk t).view.emb _ _ _ t.val
        (fun y a => win4_0.rect_emb_val t y a) (fun y a => win4_1.rect_emb_val t y a)
        (fun y a => win4_2.rect_emb_val t y a) (idx4 t) j))
    fun i => by
      obtain ⟨t, h⟩ := rows_cover (by decide) win4_2.index (fun t => (idx4 t).2.2.2.2) i
      refine ⟨t, flush4_2 t, ?_⟩
      rw [show ((cfg4.win 2).blk t).view.set = (win4_2.rect t).set from View.set_slice_whole _ _, Rect.mem_set_unit]
      exact h

end Cert.KernelIdeal.Gen

end
-- ==== Proof.KI.Reg5Val.lean ====
import proofs.«404363_j60902636257457_1_alg».proof.Proof.KI.Reg5
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx5 : RowTiled win5_0.index win5_1.index win5_2.index :=
  (by decide +kernel : ∀ t : Fin grid5.N, _)

theorem final5 (c : Dev nD) : (dat5 (F := Ideal) V c).arrAt 2 cfg5.N
    = Cert.Spec.actRow (F := Ideal) (V c (Pipeline.arrRef spec5 0)) (V c (Pipeline.arrRef spec5 1)) :=
  (dat5 (F := Ideal) V c).arrAt_eq_of_cover 2 _ (fun t _ => by
    show (cfg5.win 2).cut (grid5.coords t) ((dat5 V c).after 2 t) = _
    rw [after5_2]
    funext j
    exact act_blk (V c (Pipeline.arrRef spec5 0)) (V c (Pipeline.arrRef spec5 1)) (iblk5 V c 0 t) (iblk5 V c 1 t)
      ((cfg5.win 0).blk t).view.emb ((cfg5.win 2).blk t).view.emb ((cfg5.win 1).blk t).view.emb _ _ _ t.val
      (fun _ => rfl) (fun _ => rfl)
      (fun y a => win5_0.rect_emb_val t y a) (fun y a => win5_1.rect_emb_val t y a)
      (fun y a => win5_2.rect_emb_val t y a) (idx5 t) j)
    fun i => by
      obtain ⟨t, h⟩ := rows_cover (by decide) win5_2.index (fun t => (idx5 t).2.2.2.2) i
      refine ⟨t, flush5_2 t, ?_⟩
      rw [show ((cfg5.win 2).blk t).view.set = (win5_2.rect t).set from View.set_slice_whole _ _, Rect.mem_set_unit]
      exact h

end Cert.KernelIdeal.Gen

end
-- ==== Proof.KI.Reg6Val.lean ====
import proofs.«404363_j60902636257457_1_alg».proof.Proof.KI.Reg6
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx6 : RowTiled win6_0.index win6_1.index win6_2.index :=
  (by decide +kernel : ∀ t : Fin grid6.N, _)

theorem final6 (c : Dev nD) : (dat6 (F := Ideal) V c).arrAt 2 cfg6.N
    = Cert.Spec.lin (F := Ideal) (V c (Pipeline.arrRef spec6 0)) (V c (Pipeline.arrRef spec6 1)) :=
  (dat6 (F := Ideal) V c).arrAt_eq_of_cover 2 _ (fun t _ => by
    show (cfg6.win 2).cut (grid6.coords t) ((dat6 V c).after 2 t) = _
    rw [after6_2]
    funext j
    exact (lin2_pay (iblk6 V c 0 t) (iblk6 V c 1 t) _).trans
      (lin_blk (V c (Pipeline.arrRef spec6 0)) (V c (Pipeline.arrRef spec6 1))
        ((cfg6.win 0).blk t).view.emb ((cfg6.win 2).blk t).view.emb ((cfg6.win 1).blk t).view.emb _ _ _ t.val
        (fun y a => win6_0.rect_emb_val t y a) (fun y a => win6_1.rect_emb_val t y a)
        (fun y a => win6_2.rect_emb_val t y a) (idx6 t) j))
    fun i => by
      obtain ⟨t, h⟩ := rows_cover (by decide) win6_2.index (fun t => (idx6 t).2.2.2.2) i
      refine ⟨t, flush6_2 t, ?_⟩
      rw [show ((cfg6.win 2).blk t).view.set = (win6_2.rect t).set from View.set_slice_whole _ _, Rect.mem_set_unit]
      exact h

end Cert.KernelIdeal.Gen

end
-- ==== Proof.KI.Reg7Val.lean ====
import proofs.«404363_j60902636257457_1_alg».proof.Proof.KI.Reg7
import proofs.«404363_j60902636257457_1_alg».proof.Proof.KI.LinVal

noncomputable section

namespace Cert.KernelIdeal.Gen

open Idealize.ShloMosaic Idealize.ShloMosaic.TcCoe

variable [Cert.ReferenceIdeal.Facts]
variable (V : (c : Dev nD) → (b : Ref sig .tc) → Buf (Elt Ideal) ((c : Thread nD τ).loc b))

theorem idx7 : RowTiled win7_0.index win7_1.index win7_2.index :=
  (by decide +kernel : ∀ t : Fin grid7.N, _)

theorem final7 (c : Dev nD) : (dat7 (F := Ideal) V c).arrAt 2 cfg7.N
    = Cert.Spec.actRow (F := Ideal) (V c (Pipeline.arrRef spec7 0)) (V c (Pipeline.arrRef spec7 1)) :=
  (dat7 (F := Ideal) V c).arrAt_eq_of_cover 2 _ (fun t _ => by
    show (cfg7.win 2).cut (grid7.coords t) ((dat7 V c).after 2 t) = _
    rw [after7_2]
    funext j
    exact act_blk (V c (Pipeline.arrRef spec7 0)) (V c (Pipeline.arrRef spec7 1)) (iblk7 V c 0 t) (iblk7 V c 1 t)
      ((cfg7.win 0).blk t).view.emb ((cfg7.win 2).blk t).view.emb ((cfg7.win 1).blk t).view.emb _ _ _ t.val
      (fun _ => rfl) (fun _ => rfl)
      (fun y a => win7_0.rect_emb_val t y a) (fun y a => win7_1.rect_emb_val t y a)
      (fun y a => win7_2.rect_emb_val t y a) (idx7 t) j)
    fun i => by
      obtain ⟨t, h⟩ := rows_cover (by decide) win7_2.index (fun t => (idx7 t).2.2.2.2) i
      refine ⟨t, flush7_2 t, ?_⟩
      rw [show ((cfg7.win 2).blk t).view.set = (win7_2.rect t).set from View.set_slice_whole _ _, Rect.mem_set_unit]
      exact h

end Cert.KernelIdeal.Gen

end
-- ==== Proof.KI.PoolMath.lean ====
import proofs.«404363_j60902636257457_1_alg».proof.Proof.Gen.KernelIdeal.Skeleton
import proofs.«404363_j60902636257457_1_alg».proof.Proof.Spec
import proofs.«404363_j60902636257457_1_alg».proof.Proof.KI.LinVal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

namespace Cert.KernelIdeal.Gen

open Idealize.ShloMosaic Idealize.ShloMosaic.ValueIdx
open scoped BigOperators

def hot (b : BitVec 32) (g : Fin 64) : EReal := if b = BitVec.ofNat 32 g.val then 1 else 0

theorem cmpi_eq_hot (b : BitVec 32) (g : Fin 64) :
    ((((IntOp.cmpi .eq (BitVec.ofNat 32 g.val) b).setWidth 32).toInt : ℝ) : EReal) = hot b g := by
  unfold hot
  by_cases h : b = BitVec.ofNat 32 g.val
  · subst h
    rw [if_pos rfl]
    have h1 : IntOp.cmpi .eq (BitVec.ofNat 32 g.val) (BitVec.ofNat 32 g.val) = 1#1 := by simp [IntOp.cmpi]
    rw [h1]
    have h2 : ((1#1 : BitVec 1).setWidth 32).toInt = 1 := by decide
    rw [h2]; norm_num
  · rw [if_neg h]
    have h1 : IntOp.cmpi .eq (BitVec.ofNat 32 g.val) b = 0#1 := by
      show BitVec.ofBool (BitVec.ofNat 32 g.val == b) = 0#1
      rw [beq_eq_false_iff_ne.mpr (Ne.symm h)]; rfl
    rw [h1]
    have h2 : ((0#1 : BitVec 1).setWidth 32).toInt = 0 := by decide
    rw [h2]; norm_num

theorem pay3_apply (v4 : Vec Ideal S2000x1 .i32) (r : Fin 2000) (g : Fin 64) :
    k8_pay3 (F := Ideal) v4 (ix2 r g) = hot (v4 (ix2 r 0)) g := by
  unfold k8_pay3
  show ((((IntOp.cmpi .eq (iota .tc S2000x64 32 [1] iota_S2000x64_d1_w32 (ix2 r g))
      (broadcastTo S2000x64 (shapeCast S2000x1 v4 shapeCasts_S2000x1_S2000x1) broadcasts_S2000x1_S2000x64 (ix2 r g))).setWidth 32).toInt : ℝ) : EReal) = _
  rw [iota_single_apply, shapeCast_self,
    broadcastTo_apply v4 broadcasts_S2000x1_S2000x64 (ix2 r g) (ix2 r 0) (fun a => by
      match a with
      | ⟨0, _⟩ => rfl
      | ⟨1, _⟩ => rfl)]
  exact cmpi_eq_hot _ g

theorem hot_mul_zero_or_one (b : BitVec 32) (g : Fin 64) (x : EReal) : hot b g * x = if b = BitVec.ofNat 32 g.val then x else 0 := by
  unfold hot
  split_ifs
  · exact one_mul x
  · exact zero_mul x

theorem onehot_matmul_apply {φ : FTy} (L : FVec Ideal S2000x64 .bf16) (R : FVec Ideal S2000x128 φ) (acc : FVec Ideal S64x128 .f32)
    (g : Fin 64) (j : Fin 128) :
    matmul dot_S2000x64_S2000x128_S64x128_0_0_1_1_n_n none L R acc (ix2 g j)
      = acc (ix2 g j) + ∑ r : Fin 2000, L (ix2 r g) * R (ix2 r j) := by
  show FloatOps.matmul _ none L R acc (ix2 g j) = _
  rw [Ideal.matmul_apply]
  exact congrArg (acc (ix2 g j) + ·) (sum_contr1 _ 2000 rfl rfl L R _ (fun r => ix2 r g) (fun r => ix2 r j))

theorem count_matmul_apply {φ : FTy} (L : FVec Ideal S2000x64 .bf16) (R : FVec Ideal S2000x1 φ) (acc : FVec Ideal S64x1 .f32)
    (g : Fin 64) (z : Fin 1) :
    matmul dot_S2000x64_S2000x1_S64x1_0_0_1_1_n_n none L R acc (ix2 g z)
      = acc (ix2 g z) + ∑ r : Fin 2000, L (ix2 r g) * R (ix2 r z) := by
  show FloatOps.matmul _ none L R acc (ix2 g z) = _
  rw [Ideal.matmul_apply]
  exact congrArg (acc (ix2 g z) + ·) (sum_contr1 _ 2000 rfl rfl L R _ (fun r => ix2 r g) (fun r => ix2 r z))

theorem mlp_matmul_apply {φ₁ φ₂ : FTy} (L : FVec Ideal S64x128 φ₁) (R : FVec Ideal S128x10 φ₂) (acc : FVec Ideal S64x10 .f32)
    (g : Fin 64) (c : Fin 10) :
    matmul dot_S64x128_S128x10_S64x10_1_0_0_1_n_n none L R acc (ix2 g c)
      = acc (ix2 g c) + ∑ k : Fin 128, L (ix2 g k) * R (ix2 k c) := by
  show FloatOps.matmul _ none L R acc (ix2 g c) = _
  rw [Ideal.matmul_apply]
  exact congrArg (acc (ix2 g c) + ·) (sum_contr1 _ 128 rfl rfl L R _ (fun k => ix2 g k) (fun k => ix2 k c))

theorem pay1_apply (i : S64x128.Idx) : k8_pay1 (F := Ideal) i = 0 := by
  unfold k8_pay1
  rw [shapeCast_self]
  exact Ideal.ofBits_zero_f32
theorem pay2_apply (i : S64x1.Idx) : k8_pay2 (F := Ideal) i = 0 := by
  unfold k8_pay2
  rw [shapeCast_self]
  exact Ideal.ofBits_zero_f32

theorem pay4_apply (v4 : Vec Ideal S2000x1 .i32) (v11 : Vec Ideal S2000x128 .bf16) (v16 : Vec Ideal S64x128 .f32)
    (g : Fin 64) (j : Fin 128) :
    k8_pay4 (F := Ideal) v4 v11 v16 (ix2 g j)
      = v16 (ix2 g j) + ∑ r : Fin 2000, hot (v4 (ix2 r 0)) g * v11 (ix2 r j) := by
  unfold k8_pay4
  rw [shapeCast_self, shapeCast_self]
  show v16 (ix2 g j) + matmul dot_S2000x64_S2000x128_S64x128_0_0_1_1_n_n none (k8_pay3 (F := Ideal) v4) v11
      (constant S64x128 .f32 0x00000000#32) (ix2 g j) = _
  rw [onehot_matmul_apply]
  refine congrArg (v16 (ix2 g j) + ·) ?_
  show Ideal.ofBits .f32 0x00000000#32 + _ = _
  rw [Ideal.ofBits_zero_f32, zero_add]
  exact Finset.sum_congr rfl fun r _ => by rw [pay3_apply]

theorem pay5_apply (v4 : Vec Ideal S2000x1 .i32) (v21 : Vec Ideal S64x1 .f32) (g : Fin 64) (z : Fin 1) :
    k8_pay5 (F := Ideal) v4 v21 (ix2 g z) = v21 (ix2 g z) + ∑ r : Fin 2000, hot (v4 (ix2 r 0)) g := by
  unfold k8_pay5
  rw [shapeCast_self]
  show v21 (ix2 g z) + matmul dot_S2000x64_S2000x1_S64x1_0_0_1_1_n_n none (k8_pay3 (F := Ideal) v4)
      (broadcast S2000x1 (Scalar.ofBits (F := Ideal) .bf16 0x3F80#16)) (constant S64x1 .f32 0x00000000#32) (ix2 g z) = _
  rw [count_matmul_apply]
  refine congrArg (v21 (ix2 g z) + ·) ?_
  show Ideal.ofBits .f32 0x00000000#32 + _ = _
  rw [Ideal.ofBits_zero_f32, zero_add]
  refine Finset.sum_congr rfl fun r _ => ?_
  rw [pay3_apply]
  show _ * Ideal.ofBits .bf16 0x3F80#16 = _
  rw [Ideal.ofBits_one_bf16, mul_one]

theorem pay6_apply (v29 : Vec Ideal S64x128 .f32) (v30 : Vec Ideal S64x1 .f32) (v36 : Vec Ideal S128x10 .f32)
    (v39 : Vec Ideal S1x10 .f32) (g : Fin 64) (c : Fin 10) :
    k8_pay6 (F := Ideal) v29 v30 v36 v39 (ix2 g c)
      = (∑ k : Fin 128, Ideal.div (v29 (ix2 g k)) (max (v30 (ix2 g 0)) 1) * v36 (ix2 k c)) + v39 (ix2 0 c) := by
  unfold k8_pay6
  rw [shapeCast_self]
  show matmul dot_S64x128_S128x10_S64x10_1_0_0_1_n_n none
        (truncf .bf16 (divf v29 (broadcastTo S64x128 (maximumf v30 (broadcast S64x1 (Scalar.ofBits (F := Ideal) .f32 0x3F800000#32)))
          broadcasts_S64x1_S64x128)) bitsLt_bf16_f32)
        (truncf .bf16 v36 bitsLt_bf16_f32) (constant S64x10 .f32 0x00000000#32) (ix2 g c)
      + broadcastTo S64x10 v39 broadcasts_S1x10_S64x10 (ix2 g c) = _
  rw [mlp_matmul_apply, broadcastTo_apply v39 broadcasts_S1x10_S64x10 (ix2 g c) (ix2 0 c) (fun a => by
      match a with
      | ⟨0, _⟩ => rfl
      | ⟨1, _⟩ => rfl)]
  refine congrArg (· + v39 (ix2 0 c)) ?_
  show Ideal.ofBits .f32 0x00000000#32 + _ = _
  rw [Ideal.ofBits_zero_f32, zero_add]
  refine Finset.sum_congr rfl fun k _ => ?_
  show Ideal.div (v29 (ix2 g k)) (broadcastTo S64x128 (maximumf v30 (broadcast S64x1 (Scalar.ofBits (F := Ideal) .f32 0x3F800000#32)))
      broadcasts_S64x1_S64x128 (ix2 g k)) * v36 (ix2 k c) = _
  rw [broadcastTo_apply _ broadcasts_S64x1_S64x128 (ix2 g k) (ix2 g 0) (fun a => by
      match a with
      | ⟨0, _⟩ => rfl
      | ⟨1, _⟩ => rfl)]
  show Ideal.div (v29 (ix2 g k)) (max (v30 (ix2 g 0)) (Ideal.ofBits .f32 0x3F800000#32)) * v36 (ix2 k c) = _
  rw [Ideal.ofBits_one_f32]

theorem sum_range_tiles {M : Type*} [AddCommMonoid M] (W : ℕ) (F : ℕ → M) :
    ∀ T : ℕ, ∑ t ∈ Finset.range T, ∑ r : Fin W, F (W * t + r.val) = ∑ n ∈ Finset.range (W * T), F n
  | 0 => by simp
  | T + 1 => by
    rw [Finset.sum_range_succ, sum_range_tiles W F T, Nat.mul_succ, Finset.sum_range_add,
      Fin.sum_univ_eq_sum_range (fun r => F (W * T + r))]

theorem sum_range_tile_succ {M : Type*} [AddCommMonoid M] (W : ℕ) (F : ℕ → M) (n : ℕ) :
    ∑ m ∈ Finset.range (W * (n + 1)), F m = ∑ m ∈ Finset.range (W * n), F m + ∑ r : Fin W, F (W * n + r.val) := by
  rw [Nat.mul_succ, Finset.sum_range_add, Fin.sum_univ_eq_sum_range (fun r => F (W * n + r))]

def rowTerm (B : IVec S100000x1 32) (H : FVec Ideal S100000x128 .f32) (g : Fin 64) (j : Fin 128) (m : ℕ) : EReal :=
  if h : m < 100000 then hot (B (ix2 ⟨m, h⟩ 0)) g * H (ix2 ⟨m, h⟩ j) else 0

def rowHot (B : IVec S100000x1 32) (g : Fin 64) (m : ℕ) : EReal :=
  if h : m < 100000 then hot (B (ix2 ⟨m, h⟩ 0)) g else 0

theorem sum_rowTerm (B : IVec S100000x1 32) (H : FVec Ideal S100000x128 .f32) (g : Fin 64) (j : Fin 128) :
    ∑ m ∈ Finset.range 100000, rowTerm B H g j m = ∑ n : Fin 100000, hot (B (ix2 n 0)) g * H (ix2 n j) := by
  rw [Finset.sum_range]
  exact Finset.sum_congr rfl fun n _ => by rw [rowTerm, dif_pos n.isLt]

theorem sum_rowHot (B : IVec S100000x1 32) (g : Fin 64) :
    ∑ m ∈ Finset.range 100000, rowHot B g m = ∑ n : Fin 100000, hot (B (ix2 n 0)) g := by
  rw [Finset.sum_range]
  exact Finset.sum_congr rfl fun n _ => by rw [rowHot, dif_pos n.isLt]

section Scatter
variable [Cert.ReferenceIdeal.Facts]

theorem toInt_eq_iff (b : BitVec 32) (g : Fin 64) : b.toInt = (g.val : ℤ) ↔ b = BitVec.ofNat 32 g.val := by
  have hn : (BitVec.ofNat 32 g.val).toNat = g.val := by
    rw [BitVec.toNat_ofNat]; have := g.isLt; omega
  have hg : (BitVec.ofNat 32 g.val).toInt = (g.val : ℤ) := by
    rw [BitVec.toInt_eq_toNat_cond, hn]; have := g.isLt; split_ifs <;> omega
  constructor
  · intro h
    exact BitVec.eq_of_toInt_eq (h.trans hg.symm)
  · intro h
    rw [h, hg]

theorem resultIdx_sums (B : IVec Cert.ReferenceIdeal.S100000x1 32) (n : Fin 100000) (k : Fin 128) (g : Fin 64) (j : Fin 128) :
    Cert.ReferenceIdeal.scatter_S64x128_S100000x1_S100000x128_1_0_0_1.resultIdx? (ix2 n k) B = some (ix2 g j)
      ↔ (B (ix2 n 0) = BitVec.ofNat 32 g.val ∧ k = j) := by
  have hsi : Cert.ReferenceIdeal.scatter_S64x128_S100000x1_S100000x128_1_0_0_1.siIdx (ix2 n k)
      ⟨List.idxOf (0 : Fin 2) Cert.ReferenceIdeal.scatter_S64x128_S100000x1_S100000x128_1_0_0_1.scatterDimsToOperandDims,
        List.idxOf_lt_length_iff.2 (List.mem_singleton.mpr rfl)⟩ = ix2 n 0 := by
    funext b; refine Fin.ext ?_
    match b with
    | ⟨0, _⟩ => rfl
    | ⟨1, _⟩ => rfl
  have hs0 : Cert.ReferenceIdeal.scatter_S64x128_S100000x1_S100000x128_1_0_0_1.start (ix2 n k) B 0 = (B (ix2 n 0)).toInt := by
    unfold ScatterDims.start
    rw [dif_pos (show (0 : Fin 2) ∈ Cert.ReferenceIdeal.scatter_S64x128_S100000x1_S100000x128_1_0_0_1.scatterDimsToOperandDims from
      List.mem_singleton.mpr rfl), hsi]
  have hs1 : Cert.ReferenceIdeal.scatter_S64x128_S100000x1_S100000x128_1_0_0_1.start (ix2 n k) B 1 = 0 := by
    unfold ScatterDims.start
    have hnm : ¬ (1 : Fin 2) ∈ Cert.ReferenceIdeal.scatter_S64x128_S100000x1_S100000x128_1_0_0_1.scatterDimsToOperandDims :=
      show ¬ (1 : Fin 2) ∈ ([0] : List (Fin 2)) from by decide
    exact dif_neg hnm
  have hw0 : Cert.ReferenceIdeal.scatter_S64x128_S100000x1_S100000x128_1_0_0_1.window (ix2 n k) 0 = 0 := rfl
  have hw1 : Cert.ReferenceIdeal.scatter_S64x128_S100000x1_S100000x128_1_0_0_1.window (ix2 n k) 1 = k.val := rfl
  unfold ScatterDims.resultIdx?
  constructor
  · intro h
    split at h
    next hc =>
      have h' := Option.some.inj h
      have e0 : (Cert.ReferenceIdeal.scatter_S64x128_S100000x1_S100000x128_1_0_0_1.start (ix2 n k) B 0 + Cert.ReferenceIdeal.scatter_S64x128_S100000x1_S100000x128_1_0_0_1.window (ix2 n k) 0).toNat = g.val :=
        congrArg (fun f => (f 0).val) h'
      have e1 : (Cert.ReferenceIdeal.scatter_S64x128_S100000x1_S100000x128_1_0_0_1.start (ix2 n k) B 1 + Cert.ReferenceIdeal.scatter_S64x128_S100000x1_S100000x128_1_0_0_1.window (ix2 n k) 1).toNat = j.val :=
        congrArg (fun f => (f 1).val) h'
      have c0 := hc 0
      rw [hs0, hw0] at e0 c0
      rw [hs1, hw1] at e1
      exact ⟨(toInt_eq_iff _ g).mp (by omega), Fin.ext (by omega)⟩
    next => cases h
  · rintro ⟨hB, rfl⟩
    have hi := (toInt_eq_iff _ g).mpr hB
    have hc : ∀ a : Fin 2, 0 ≤ Cert.ReferenceIdeal.scatter_S64x128_S100000x1_S100000x128_1_0_0_1.start (ix2 n k) B a + Cert.ReferenceIdeal.scatter_S64x128_S100000x1_S100000x128_1_0_0_1.window (ix2 n k) a
        ∧ Cert.ReferenceIdeal.scatter_S64x128_S100000x1_S100000x128_1_0_0_1.start (ix2 n k) B a + Cert.ReferenceIdeal.scatter_S64x128_S100000x1_S100000x128_1_0_0_1.window (ix2 n k) a < Cert.ReferenceIdeal.S64x128.size a := fun a => by
      match a with
      | ⟨0, _⟩ =>
        show 0 ≤ Cert.ReferenceIdeal.scatter_S64x128_S100000x1_S100000x128_1_0_0_1.start (ix2 n k) B 0 + Cert.ReferenceIdeal.scatter_S64x128_S100000x1_S100000x128_1_0_0_1.window (ix2 n k) 0
          ∧ Cert.ReferenceIdeal.scatter_S64x128_S100000x1_S100000x128_1_0_0_1.start (ix2 n k) B 0 + Cert.ReferenceIdeal.scatter_S64x128_S100000x1_S100000x128_1_0_0_1.window (ix2 n k) 0 < (64 : ℕ)
        rw [hs0, hw0, hi]; have := g.isLt; omega
      | ⟨1, _⟩ =>
        show 0 ≤ Cert.ReferenceIdeal.scatter_S64x128_S100000x1_S100000x128_1_0_0_1.start (ix2 n k) B 1 + Cert.ReferenceIdeal.scatter_S64x128_S100000x1_S100000x128_1_0_0_1.window (ix2 n k) 1
          ∧ Cert.ReferenceIdeal.scatter_S64x128_S100000x1_S100000x128_1_0_0_1.start (ix2 n k) B 1 + Cert.ReferenceIdeal.scatter_S64x128_S100000x1_S100000x128_1_0_0_1.window (ix2 n k) 1 < (128 : ℕ)
        rw [hs1, hw1]; have := k.isLt; omega
    rw [dif_pos hc]
    refine congrArg some (funext fun a => Fin.ext ?_)
    match a with
    | ⟨0, _⟩ =>
      show (Cert.ReferenceIdeal.scatter_S64x128_S100000x1_S100000x128_1_0_0_1.start (ix2 n k) B 0 + Cert.ReferenceIdeal.scatter_S64x128_S100000x1_S100000x128_1_0_0_1.window (ix2 n k) 0).toNat = g.val
      rw [hs0, hw0, hi]; omega
    | ⟨1, _⟩ =>
      show (Cert.ReferenceIdeal.scatter_S64x128_S100000x1_S100000x128_1_0_0_1.start (ix2 n k) B 1 + Cert.ReferenceIdeal.scatter_S64x128_S100000x1_S100000x128_1_0_0_1.window (ix2 n k) 1).toNat = k.val
      rw [hs1, hw1]; omega

theorem resultIdx_counts (B : IVec Cert.ReferenceIdeal.S100000x1 32) (n : Fin 100000) (g : Fin 64) :
    Cert.ReferenceIdeal.scatter_S64_S100000x1_S100000_n_0_0_1.resultIdx? (ix1 n) B = some (ix1 g) ↔ B (ix2 n 0) = BitVec.ofNat 32 g.val := by
  have hsi : Cert.ReferenceIdeal.scatter_S64_S100000x1_S100000_n_0_0_1.siIdx (ix1 n)
      ⟨List.idxOf (0 : Fin 1) Cert.ReferenceIdeal.scatter_S64_S100000x1_S100000_n_0_0_1.scatterDimsToOperandDims,
        List.idxOf_lt_length_iff.2 (List.mem_singleton.mpr rfl)⟩ = ix2 n 0 := by
    funext b; refine Fin.ext ?_
    match b with
    | ⟨0, _⟩ => rfl
    | ⟨1, _⟩ => rfl
  have hs0 : Cert.ReferenceIdeal.scatter_S64_S100000x1_S100000_n_0_0_1.start (ix1 n) B 0 = (B (ix2 n 0)).toInt := by
    unfold ScatterDims.start
    rw [dif_pos (show (0 : Fin 1) ∈ Cert.ReferenceIdeal.scatter_S64_S100000x1_S100000_n_0_0_1.scatterDimsToOperandDims from List.mem_singleton.mpr rfl), hsi]
  have hw0 : Cert.ReferenceIdeal.scatter_S64_S100000x1_S100000_n_0_0_1.window (ix1 n) 0 = 0 := rfl
  unfold ScatterDims.resultIdx?
  constructor
  · intro h
    split at h
    next hc =>
      have h' := Option.some.inj h
      have e0 : (Cert.ReferenceIdeal.scatter_S64_S100000x1_S100000_n_0_0_1.start (ix1 n) B 0 + Cert.ReferenceIdeal.scatter_S64_S100000x1_S100000_n_0_0_1.window (ix1 n) 0).toNat = g.val :=
        congrArg (fun f => (f 0).val) h'
      have c0 := hc 0
      rw [hs0, hw0] at e0 c0
      exact (toInt_eq_iff _ g).mp (by omega)
    next => cases h
  · intro hB
    have hi := (toInt_eq_iff _ g).mpr hB
    have hc : ∀ a : Fin 1, 0 ≤ Cert.ReferenceIdeal.scatter_S64_S100000x1_S100000_n_0_0_1.start (ix1 n) B a + Cert.ReferenceIdeal.scatter_S64_S100000x1_S100000_n_0_0_1.window (ix1 n) a
        ∧ Cert.ReferenceIdeal.scatter_S64_S100000x1_S100000_n_0_0_1.start (ix1 n) B a + Cert.ReferenceIdeal.scatter_S64_S100000x1_S100000_n_0_0_1.window (ix1 n) a < Cert.ReferenceIdeal.S64.size a := fun a => by
      match a with
      | ⟨0, _⟩ =>
        show 0 ≤ Cert.ReferenceIdeal.scatter_S64_S100000x1_S100000_n_0_0_1.start (ix1 n) B 0 + Cert.ReferenceIdeal.scatter_S64_S100000x1_S100000_n_0_0_1.window (ix1 n) 0
          ∧ Cert.ReferenceIdeal.scatter_S64_S100000x1_S100000_n_0_0_1.start (ix1 n) B 0 + Cert.ReferenceIdeal.scatter_S64_S100000x1_S100000_n_0_0_1.window (ix1 n) 0 < (64 : ℕ)
        rw [hs0, hw0, hi]; have := g.isLt; omega
    rw [dif_pos hc]
    refine congrArg some (funext fun a => Fin.ext ?_)
    match a with
    | ⟨0, _⟩ =>
      show (Cert.ReferenceIdeal.scatter_S64_S100000x1_S100000_n_0_0_1.start (ix1 n) B 0 + Cert.ReferenceIdeal.scatter_S64_S100000x1_S100000_n_0_0_1.window (ix1 n) 0).toNat = g.val
      rw [hs0, hw0, hi]; omega

theorem scatter_sums_apply (B : IVec Cert.ReferenceIdeal.S100000x1 32) (H : FVec Ideal Cert.ReferenceIdeal.S100000x128 .f32)
    (g : Fin 64) (j : Fin 128) :
    Host.scatterAdd Cert.ReferenceIdeal.scatter_S64x128_S100000x1_S100000x128_1_0_0_1
        (broadcastInDim Cert.ReferenceIdeal.S64x128 ![] Cert.ReferenceIdeal.Facts₀.bcast_S_S64x128 (constant (F := Ideal) Cert.ReferenceIdeal.S_ .f32 0x00000000#32))
        B H (ix2 g j)
      = ∑ n : Fin 100000, hot (B (ix2 n 0)) g * H (ix2 n j) := by
  show Ideal.hostScatterAdd Cert.ReferenceIdeal.scatter_S64x128_S100000x1_S100000x128_1_0_0_1 _ B H (ix2 g j) = _
  unfold Ideal.hostScatterAdd
  rw [broadcastInDim_scalar_apply]
  show Ideal.ofBits .f32 0x00000000#32 + _ = _
  rw [Ideal.ofBits_zero_f32, zero_add, Finset.sum_filter, sum_idx2]
  refine Finset.sum_congr rfl fun n _ => ?_
  simp only [resultIdx_sums]
  rw [hot_mul_zero_or_one]
  by_cases hB : B (ix2 n 0) = BitVec.ofNat 32 g.val
  · simp [hB]
  · simp [hB]

theorem scatter_counts_apply (B : IVec Cert.ReferenceIdeal.S100000x1 32) (g : Fin 64) :
    Host.scatterAdd Cert.ReferenceIdeal.scatter_S64_S100000x1_S100000_n_0_0_1
        (broadcastInDim Cert.ReferenceIdeal.S64 ![] Cert.ReferenceIdeal.Facts₀.bcast_S_S64 (constant (F := Ideal) Cert.ReferenceIdeal.S_ .f32 0x00000000#32))
        B (broadcastInDim Cert.ReferenceIdeal.S100000 ![] Cert.ReferenceIdeal.Facts₀.bcast_S_S100000 (constant (F := Ideal) Cert.ReferenceIdeal.S_ .f32 0x3F800000#32))
        (ix1 g)
      = ∑ n : Fin 100000, hot (B (ix2 n 0)) g := by
  show Ideal.hostScatterAdd Cert.ReferenceIdeal.scatter_S64_S100000x1_S100000_n_0_0_1 _ B _ (ix1 g) = _
  unfold Ideal.hostScatterAdd
  rw [broadcastInDim_scalar_apply]
  show Ideal.ofBits .f32 0x00000000#32 + _ = _
  rw [Ideal.ofBits_zero_f32, zero_add, Finset.sum_filter, ← Equiv.sum_comp (idxEquiv1 (n := 100000)).symm]
  refine Finset.sum_congr rfl fun n _ => ?_
  show (if Cert.ReferenceIdeal.scatter_S64_S100000x1_S100000_n_0_0_1.resultIdx? (ix1 n) B = some (ix1 g) then _ else 0) = _
  rw [broadcastInDim_scalar_apply]
  show (if _ then Ideal.ofBits .f32 0x3F800000#32 else 0) = _
  simp only [resultIdx_counts, Ideal.ofBits_one_f32]
  rfl

theorem ref_mlp_dot_apply (L : FVec Ideal Cert.ReferenceIdeal.S64x128 .f32) (R : FVec Ideal Cert.ReferenceIdeal.S128x10 .f32)
    (g : Fin 64) (c : Fin 10) :
    Host.dotGeneral Cert.ReferenceIdeal.dot_S64x128_S128x10_S64x10_1_0_0_1_n_n none L R (ix2 g c) = ∑ k : Fin 128, L (ix2 g k) * R (ix2 k c) := by
  show FloatOps.dotGeneral _ none _ L R (ix2 g c) = _
  rw [Ideal.dotGeneral_apply]
  exact sum_contr1 _ 128 rfl rfl L R _ (fun k => ix2 g k) (fun k => ix2 k c)

theorem headRow_apply (B : IVec Cert.ReferenceIdeal.S100000x1 32) (H : FVec Ideal Cert.ReferenceIdeal.S100000x128 .f32)
    (Wm : FVec Ideal Cert.ReferenceIdeal.S128x10 .f32) (bm2 : FVec Ideal Cert.ReferenceIdeal.S1x10 .f32) (g : Fin 64) (c : Fin 10) :
    Cert.Spec.headRow (F := Ideal) B H Wm bm2 (ix2 g c)
      = (∑ k : Fin 128, Ideal.div (∑ n : Fin 100000, hot (B (ix2 n 0)) g * H (ix2 n k))
            (max (∑ n : Fin 100000, hot (B (ix2 n 0)) g) 1) * Wm (ix2 k c)) + bm2 (ix2 0 c) := by
  unfold Cert.Spec.headRow
  rw [addf_apply, ref_mlp_dot_apply,
    broadcastInDim_apply _ Cert.ReferenceIdeal.Facts₀.bcast_S1x10_S64x10_0_1 bm2 (ix2 g c) (ix2 0 c) (fun a => by
      match a with
      | ⟨0, _⟩ => rfl
      | ⟨1, _⟩ => rfl)]
  refine congrArg (· + bm2 (ix2 0 c)) (Finset.sum_congr rfl fun k _ => ?_)
  rw [hostDivf_apply, scatter_sums_apply,
    broadcastInDim_apply _ Cert.ReferenceIdeal.Facts₀.bcast_S64x1_S64x128_0_1 _ (ix2 g k) (ix2 g 0) (fun a => by
      match a with
      | ⟨0, _⟩ => rfl
      | ⟨1, _⟩ => rfl),
    broadcastInDim_apply _ Cert.ReferenceIdeal.Facts₀.bcast_S64_S64x1_0 _ (ix2 g 0) (ix1 g) (fun a => by
      match a with
      | ⟨0, _⟩ => rfl),
    maximumf_apply, scatter_counts_apply, broadcastInDim_scalar_apply]
  show Ideal.div _ (max _ (Ideal.ofBits .f32 0x3F800000#32)) * _ = _
  rw [Ideal.ofBits_one_f32]

theorem pool_eq_head (B : IVec S100000x1 32) (H : FVec Ideal S100000x128 .f32) (Wm : FVec Ideal S128x10 .f32)
    (bm2 : FVec Ideal S1x10 .f32) (sums : FVec Ideal S64x128 .f32) (cnt : FVec Ideal S64x1 .f32)
    (hs : ∀ (g : Fin 64) (j : Fin 128), sums (ix2 g j) = ∑ m ∈ Finset.range 100000, rowTerm B H g j m)
    (hc : ∀ g : Fin 64, cnt (ix2 g 0) = ∑ m ∈ Finset.range 100000, rowHot B g m) :
    k8_pay6 (F := Ideal) sums cnt Wm bm2 = Cert.Spec.headRow (F := Ideal) B H Wm bm2 := by
  funext i
  obtain ⟨g, c, rfl⟩ : ∃ (g : Fin 64) (c : Fin 10), i = ix2 g c := ⟨i 0, i 1, eq_ix2 i⟩
  rw [pay6_apply, headRow_apply, hc g, sum_rowHot]
  refine congrArg (· + bm2 (ix2 0 c)) (Finset.sum_congr rfl fun k _ => ?_)
  rw [hs g k, sum_rowTerm]

end Scatter

end Cert.KernelIdeal.Gen
end
-- ==== Proof.KI.Reg8Val.lean ====
import proofs.«404363_j60902636257457_1_alg».proof.Proof.KI.Reg8
import proofs.«404363_j60902636257457_1_alg».proof.Proof.KI.PoolMath
import proofs.«404363_j60902636257457_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gen

open Idealize.ShloMosaic Idealize.ShloMosaic.TcCoe
open Idealize.ShloMosaic.Pipeline (Dat Cfg Window)
open Idealize.ShloMosaic.ValueIdx
open scoped BigOperators

variable [Cert.ReferenceIdeal.Facts]

variable (V : (c : Dev nD) → (b : Ref sig .tc) → Buf (Elt Ideal) ((c : Thread nD τ).loc b))

abbrev Harr8 (c : Dev nD) : FVec Ideal S100000x128 .f32 := V c (Pipeline.arrRef spec8 0)
abbrev Barr8 (c : Dev nD) : IVec S100000x1 32 := V c (Pipeline.arrRef spec8 1)
abbrev Warr8 (c : Dev nD) : FVec Ideal S128x10 .f32 := V c (Pipeline.arrRef spec8 2)
abbrev barr8 (c : Dev nD) : FVec Ideal S1x10 .f32 := V c (Pipeline.arrRef spec8 3)

abbrev hblk8 (c : Dev nD) (t : Fin cfg8.N) : Vec Ideal S2000x128 .bf16 := iblk8 V c 0 t
abbrev bblk8 (c : Dev nD) (t : Fin cfg8.N) : Vec Ideal S2000x1 .i32 := iblk8 V c 1 t
abbrev wblk8 (c : Dev nD) (t : Fin cfg8.N) : Vec Ideal S128x10 .f32 := iblk8 V c 2 t
abbrev cblk8 (c : Dev nD) (t : Fin cfg8.N) : Vec Ideal S1x10 .f32 := iblk8 V c 3 t

theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

theorem hblk8_at (c : Dev nD) (t : Fin cfg8.N) (r : Fin 2000) (j : Fin 128) (h : 2000 * t.val + r.val < 100000) :
    hblk8 V c t (ix2 r j) = Harr8 V c (ix2 ⟨2000 * t.val + r.val, h⟩ j) := by
  obtain ⟨e0, e1, -⟩ := idx_facts8 t
  show V c (Pipeline.arrRef spec8 0) (((cfg8.win 0).blk t).view.emb (ix2 r j)) = _
  refine congrArg _ (funext fun a => Fin.ext ?_)
  match a with
  | ⟨0, _⟩ => show win8_0.index t (0 : Fin 2) * 2000 + 1 * r.val = 2000 * t.val + r.val; omega
  | ⟨1, _⟩ => show win8_0.index t (1 : Fin 2) * 128 + 1 * j.val = j.val; omega

theorem bblk8_at (c : Dev nD) (t : Fin cfg8.N) (r : Fin 2000) (h : 2000 * t.val + r.val < 100000) :
    bblk8 V c t (ix2 r 0) = Barr8 V c (ix2 ⟨2000 * t.val + r.val, h⟩ 0) := by
  obtain ⟨-, -, e2, e3, -⟩ := idx_facts8 t
  show V c (Pipeline.arrRef spec8 1) (((cfg8.win 1).blk t).view.emb (ix2 r (0 : Fin 1))) = _
  refine congrArg _ (funext fun a => Fin.ext ?_)
  match a with
  | ⟨0, _⟩ => show win8_1.index t (0 : Fin 2) * 2000 + 1 * r.val = 2000 * t.val + r.val; omega
  | ⟨1, _⟩ => show win8_1.index t (1 : Fin 2) * 1 + 1 * 0 = 0; omega

theorem wblk8_eq (c : Dev nD) (t : Fin cfg8.N) : wblk8 V c t = Warr8 V c := by
  obtain ⟨-, -, -, -, e4, e5, -⟩ := idx_facts8 t
  funext i
  obtain ⟨p, q, rfl⟩ : ∃ (p : Fin 128) (q : Fin 10), i = ix2 p q := ⟨i 0, i 1, eq_ix2 i⟩
  show V c (Pipeline.arrRef spec8 2) (((cfg8.win 2).blk t).view.emb (ix2 p q)) = V c (Pipeline.arrRef spec8 2) (ix2 p q)
  refine congrArg _ (funext fun a => Fin.ext ?_)
  match a with
  | ⟨0, _⟩ => show win8_2.index t (0 : Fin 2) * 128 + 1 * p.val = p.val; omega
  | ⟨1, _⟩ => show win8_2.index t (1 : Fin 2) * 10 + 1 * q.val = q.val; omega

theorem cblk8_eq (c : Dev nD) (t : Fin cfg8.N) : cblk8 V c t = barr8 V c := by
  obtain ⟨-, -, -, -, -, -, e6, e7, -⟩ := idx_facts8 t
  funext i
  obtain ⟨p, q, rfl⟩ : ∃ (p : Fin 1) (q : Fin 10), i = ix2 p q := ⟨i 0, i 1, eq_ix2 i⟩
  show V c (Pipeline.arrRef spec8 3) (((cfg8.win 3).blk t).view.emb (ix2 p q)) = V c (Pipeline.arrRef spec8 3) (ix2 p q)
  refine congrArg _ (funext fun a => Fin.ext ?_)
  match a with
  | ⟨0, _⟩ => show win8_3.index t (0 : Fin 2) * 1 + 1 * p.val = p.val; omega
  | ⟨1, _⟩ => show win8_3.index t (1 : Fin 2) * 10 + 1 * q.val = q.val; omega

theorem rows_lt8 (t : Fin cfg8.N) (r : Fin 2000) : 2000 * t.val + r.val < 100000 := by
  have h1 := t.isLt; have h2 : cfg8.N = 50 := N_8; have h3 := r.isLt; omega

theorem tile_sum8 (c : Dev nD) (t : Fin cfg8.N) (g : Fin 64) (j : Fin 128) :
    ∑ r : Fin 2000, hot (bblk8 V c t (ix2 r 0)) g * hblk8 V c t (ix2 r j)
      = ∑ r : Fin 2000, rowTerm (Barr8 V c) (Harr8 V c) g j (2000 * t.val + r.val) :=
  Finset.sum_congr rfl fun r _ => by
    rw [rowTerm, dif_pos (rows_lt8 t r), bblk8_at V c t r (rows_lt8 t r), hblk8_at V c t r j (rows_lt8 t r)]

theorem tile_hot8 (c : Dev nD) (t : Fin cfg8.N) (g : Fin 64) :
    ∑ r : Fin 2000, hot (bblk8 V c t (ix2 r 0)) g = ∑ r : Fin 2000, rowHot (Barr8 V c) g (2000 * t.val + r.val) :=
  Finset.sum_congr rfl fun r _ => by
    rw [rowHot, dif_pos (rows_lt8 t r), bblk8_at V c t r (rows_lt8 t r)]

theorem acc8_sums (c : Dev nD) (n : ℕ) (hn : n < cfg8.N) (g : Fin 64) (j : Fin 128) :
    ((acc8 V c n hn).1 (ix2 g j) : EReal) = ∑ m ∈ Finset.range (2000 * (n + 1)), rowTerm (Barr8 V c) (Harr8 V c) g j m := by
  induction n with
  | zero =>
    rw [sum_range_tile_succ 2000 _ 0]
    show (k8_pay4 (F := Ideal) (bblk8 V c ⟨0, hn⟩) (hblk8 V c ⟨0, hn⟩) (k8_pay1 (F := Ideal)) (ix2 g j) : EReal) = _
    rw [pay4_apply, pay1_apply, tile_sum8 V c ⟨0, hn⟩ g j]
    simp only [Nat.mul_zero, Finset.range_zero, Finset.sum_empty]
  | succ n ih =>
    rw [sum_range_tile_succ 2000 _ (n + 1), ← ih (Nat.lt_of_succ_lt hn)]
    show (k8_pay4 (F := Ideal) (bblk8 V c ⟨n + 1, hn⟩) (hblk8 V c ⟨n + 1, hn⟩) (acc8 V c n (Nat.lt_of_succ_lt hn)).1 (ix2 g j) : EReal) = _
    rw [pay4_apply, tile_sum8 V c ⟨n + 1, hn⟩ g j]

theorem acc8_counts (c : Dev nD) (n : ℕ) (hn : n < cfg8.N) (g : Fin 64) :
    ((acc8 V c n hn).2 (ix2 g 0) : EReal) = ∑ m ∈ Finset.range (2000 * (n + 1)), rowHot (Barr8 V c) g m := by
  induction n with
  | zero =>
    rw [sum_range_tile_succ 2000 _ 0]
    show (k8_pay5 (F := Ideal) (bblk8 V c ⟨0, hn⟩) (k8_pay2 (F := Ideal)) (ix2 g (0 : Fin 1)) : EReal) = _
    rw [pay5_apply, pay2_apply, tile_hot8 V c ⟨0, hn⟩ g]
    simp only [Nat.mul_zero, Finset.range_zero, Finset.sum_empty]
  | succ n ih =>
    rw [sum_range_tile_succ 2000 _ (n + 1), ← ih (Nat.lt_of_succ_lt hn)]
    show (k8_pay5 (F := Ideal) (bblk8 V c ⟨n + 1, hn⟩) (acc8 V c n (Nat.lt_of_succ_lt hn)).2 (ix2 g (0 : Fin 1)) : EReal) = _
    rw [pay5_apply, tile_hot8 V c ⟨n + 1, hn⟩ g]

theorem acc8_all_sums (c : Dev nD) (t : Fin cfg8.N) (ht : t.val = 49) (g : Fin 64) (j : Fin 128) :
    ((acc8 V c t.val t.isLt).1 (ix2 g j) : EReal) = ∑ m ∈ Finset.range 100000, rowTerm (Barr8 V c) (Harr8 V c) g j m := by
  have e : 2000 * (t.val + 1) = 100000 := by omega
  rw [acc8_sums V c t.val t.isLt g j, e]

theorem acc8_all_counts (c : Dev nD) (t : Fin cfg8.N) (ht : t.val = 49) (g : Fin 64) :
    ((acc8 V c t.val t.isLt).2 (ix2 g 0) : EReal) = ∑ m ∈ Finset.range 100000, rowHot (Barr8 V c) g m := by
  have e : 2000 * (t.val + 1) = 100000 := by omega
  rw [acc8_counts V c t.val t.isLt g, e]

theorem after8_4_head (c : Dev nD) (t : Fin cfg8.N) (ht : t.val = 49) :
    (k8_pay6 (F := Ideal) (acc8 V c t.val t.isLt).1 (acc8 V c t.val t.isLt).2 (wblk8 V c t) (cblk8 V c t) : FVec Ideal S64x10 .f32)
      = Cert.Spec.headRow (F := Ideal) (V c (Pipeline.arrRef spec8 1)) (V c (Pipeline.arrRef spec8 0)) (V c (Pipeline.arrRef spec8 2)) (V c (Pipeline.arrRef spec8 3)) := by
  rw [wblk8_eq V c t, cblk8_eq V c t]
  exact pool_eq_head (Barr8 V c) (Harr8 V c) (Warr8 V c) (barr8 V c) (acc8 V c t.val t.isLt).1 (acc8 V c t.val t.isLt).2
    (fun g j => acc8_all_sums V c t ht g j) (fun g => acc8_all_counts V c t ht g)

theorem flushed8_4_eq (c : Dev nD) (t : Fin cfg8.N) (hf : (cfg8.win 4).flush t = true) :
    (dat8 V c).flushed 4 t = ((cfg8.win 4).blk t).view.read (Elt Ideal)
      (Cert.Spec.headRow (F := Ideal) (V c (Pipeline.arrRef spec8 1)) (V c (Pipeline.arrRef spec8 0)) (V c (Pipeline.arrRef spec8 2)) (V c (Pipeline.arrRef spec8 3))) := by
  have ht : t.val = 49 := by
    have h1 := (flush8_4 t).mp hf; have h2 := t.isLt; have h3 : cfg8.N = 50 := N_8; omega
  obtain ⟨-, -, -, -, -, -, -, -, e8, e9⟩ := idx_facts8 t
  show (cfg8.win 4).cut (grid8.coords t) ((dat8 V c).after 4 t) = _
  rw [after8_4]
  funext i
  obtain ⟨p, q, rfl⟩ : ∃ (p : Fin 64) (q : Fin 10), i = ix2 p q := ⟨i 0, i 1, eq_ix2 i⟩
  refine (congrFun (after8_4_head V c t ht) (ix2 p q)).trans ?_
  show _ = Cert.Spec.headRow (F := Ideal) (V c (Pipeline.arrRef spec8 1)) (V c (Pipeline.arrRef spec8 0)) (V c (Pipeline.arrRef spec8 2)) (V c (Pipeline.arrRef spec8 3)) (((cfg8.win 4).blk t).view.emb (ix2 p q))
  refine congrArg _ (funext fun a => Fin.ext ?_)
  match a with
  | ⟨0, _⟩ => show p.val = win8_4.index t (0 : Fin 2) * 64 + 1 * p.val; omega
  | ⟨1, _⟩ => show q.val = win8_4.index t (1 : Fin 2) * 10 + 1 * q.val; omega

theorem mem_blk8_4 (t : Fin cfg8.N) (i : S64x10.Idx) :
    i ∈ ((cfg8.win 4).blk t).view.set ↔ ∀ a : Fin 2, win8_4.index t a * S64x10.size a ≤ (i a).val ∧ (i a).val < win8_4.index t a * S64x10.size a + S64x10.size a := by
  show i ∈ ((View.whole (Pipeline.arrRef spec8 4)).slice (win8_4.rect t)).set ↔ _
  rw [View.set_slice_whole, Rect.mem_set_unit]
  exact Iff.rfl

theorem rows_cover8_4 (i : S64x10.Idx) :
    ∃ t : Fin cfg8.N, (cfg8.win 4).flush t = true ∧ i ∈ ((cfg8.win 4).blk t).view.set := by
  have hi0 : (i 0).val < 64 := (i 0).isLt
  have hi1 : (i 1).val < 10 := (i 1).isLt
  obtain ⟨-, -, -, -, -, -, -, -, e8, e9⟩ := idx_facts8 ⟨49, lt49_8⟩
  refine ⟨⟨49, lt49_8⟩, (flush8_4 ⟨49, lt49_8⟩).mpr rfl, ?_⟩
  rw [mem_blk8_4]
  intro a
  match a with
  | ⟨0, _⟩ => show win8_4.index ⟨49, lt49_8⟩ (0 : Fin 2) * 64 ≤ (i 0).val ∧ (i 0).val < win8_4.index ⟨49, lt49_8⟩ (0 : Fin 2) * 64 + 64; omega
  | ⟨1, _⟩ => show win8_4.index ⟨49, lt49_8⟩ (1 : Fin 2) * 10 ≤ (i 1).val ∧ (i 1).val < win8_4.index ⟨49, lt49_8⟩ (1 : Fin 2) * 10 + 10; omega

theorem final8 (c : Dev nD) :
    (dat8 (F := Ideal) V c).arrAt 4 cfg8.N
      = Cert.Spec.headRow (F := Ideal) (V c (Pipeline.arrRef spec8 1)) (V c (Pipeline.arrRef spec8 0)) (V c (Pipeline.arrRef spec8 2)) (V c (Pipeline.arrRef spec8 3)) :=
  (dat8 V c).arrAt_eq_of_cover 4 _ (fun t hf => flushed8_4_eq V c t hf) rows_cover8_4

end Cert.KernelIdeal.Gen

end
-- ==== Proof.KI.Final.lean ====
import proofs.«404363_j60902636257457_1_alg».proof.Proof.KI.Run
import proofs.«404363_j60902636257457_1_alg».proof.Proof.KI.Chain
import proofs.«404363_j60902636257457_1_alg».proof.Proof.KI.Value
import proofs.«404363_j60902636257457_1_alg».proof.Proof.KI.Reg0Val
import proofs.«404363_j60902636257457_1_alg».proof.Proof.KI.Reg1Val
import proofs.«404363_j60902636257457_1_alg».proof.Proof.KI.Reg2Val
import proofs.«404363_j60902636257457_1_alg».proof.Proof.KI.Reg3Val
import proofs.«404363_j60902636257457_1_alg».proof.Proof.KI.Reg4Val
import proofs.«404363_j60902636257457_1_alg».proof.Proof.KI.Reg5Val
import proofs.«404363_j60902636257457_1_alg».proof.Proof.KI.Reg6Val
import proofs.«404363_j60902636257457_1_alg».proof.Proof.KI.Reg7Val
import proofs.«404363_j60902636257457_1_alg».proof.Proof.KI.Reg8Val
import proofs.«404363_j60902636257457_1_alg».proof.Proof.Spec
import Idealize.ShloMosaic.Lib.StableHlo.RunLoop
import Idealize.ShloMosaic.PureOps.Ideal

set_option maxRecDepth 16384

noncomputable section

namespace Cert.KernelIdeal.Gen

open Idealize.ShloMosaic Idealize.ShloMosaic.TcCoe Idealize.SL.Sem Cert.KernelIdeal

variable [Cert.ReferenceIdeal.Facts]
variable (m : (ℓ : Loc nD τ sig) → Buf (Elt Ideal) ℓ) (c : Dev nD)

theorem value : X15 m c main_v118
    = Cert.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) := by
  rw [← V15_eq m c]
  refine value_of m (outs m) c ((X2_v28 m c).trans (final0 (fun c b => X1 m c b) c)) ?_ ?_ ?_ ?_ ?_ ?_ ?_ ?_
  · rw [V3_eq m c]; exact (X4_v49 m c).trans (final1 (fun c b => X3 m c b) c)
  · rw [V4_eq m c]; exact (X5_v50 m c).trans (final2 (fun c b => X4 m c b) c)
  · rw [V6_eq m c]; exact (X7_v71 m c).trans (final3 (fun c b => X6 m c b) c)
  · rw [V7_eq m c]; exact (X8_v72 m c).trans (final4 (fun c b => X7 m c b) c)
  · rw [V9_eq m c]; exact (X10_v93 m c).trans (final5 (fun c b => X9 m c b) c)
  · rw [V10_eq m c]; exact (X11_v94 m c).trans (final6 (fun c b => X10 m c b) c)
  · rw [V12_eq m c]; exact (X13_v115 m c).trans (final7 (fun c b => X12 m c b) c)
  · rw [V14_eq m c]; exact (X15_v118 m c).trans (final8 (fun c b => X14 m c b) c)

theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v118)
          = Cert.Spec.gcn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c =>
    ⟨(h c _ (StableHlo.devRef_mem_ucRefs main_v118 rfl)).trans (value m c),
     (h c _ (StableHlo.devRef_mem_ucRefs main_arg0 rfl)).trans (X15_launch m c _ (V15_main_arg0 m (outs m) c)),
     (h c _ (StableHlo.devRef_mem_ucRefs main_arg1 rfl)).trans (X15_launch m c _ (V15_main_arg1 m (outs m) c)),
     (h c _ (StableHlo.devRef_mem_ucRefs main_arg2 rfl)).trans (X15_launch m c _ (V15_main_arg2 m (outs m) c)),
     (h c _ (StableHlo.devRef_mem_ucRefs main_arg3 rfl)).trans (X15_launch m c _ (V15_main_arg3 m (outs m) c)),
     (h c _ (StableHlo.devRef_mem_ucRefs main_arg4 rfl)).trans (X15_launch m c _ (V15_main_arg4 m (outs m) c)),
     (h c _ (StableHlo.devRef_mem_ucRefs main_arg5 rfl)).trans (X15_launch m c _ (V15_main_arg5 m (outs m) c)),
     (h c _ (StableHlo.devRef_mem_ucRefs main_arg6 rfl)).trans (X15_launch m c _ (V15_main_arg6 m (outs m) c)),
     (h c _ (StableHlo.devRef_mem_ucRefs main_arg7 rfl)).trans (X15_launch m c _ (V15_main_arg7 m (outs m) c)),
     (h c _ (StableHlo.devRef_mem_ucRefs main_arg8 rfl)).trans (X15_launch m c _ (V15_main_arg8 m (outs m) c))⟩)
    (run_all m ρ)

end Cert.KernelIdeal.Gen

end
-- ==== Proof.lean ====
import proofs.«404363_j60902636257457_1_alg».proof.Defs
import proofs.«404363_j60902636257457_1_alg».proof.Proof.Gen.Kernel
import proofs.«404363_j60902636257457_1_alg».proof.Proof.Gen.KernelIdeal
import proofs.«404363_j60902636257457_1_alg».proof.Proof.Gen.ReferenceIdeal
import proofs.«404363_j60902636257457_1_alg».proof.Proof.Gen.Pre_finite_inputs
import proofs.«404363_j60902636257457_1_alg».proof.Proof.Gen.ReferenceIdeal.Run
import proofs.«404363_j60902636257457_1_alg».proof.Proof.Spec
import proofs.«404363_j60902636257457_1_alg».proof.Proof.RefG
import proofs.«404363_j60902636257457_1_alg».proof.Proof.KB.Run
import proofs.«404363_j60902636257457_1_alg».proof.Proof.KI.Run
import proofs.«404363_j60902636257457_1_alg».proof.Proof.KI.Final
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

-- The reference's frame is its run with the result dropped.
theorem frame_referenceIdeal : Cert.frame_ReferenceIdeal := fun m g _ => Cert.RefG.frame_ref m g

-- The idealized kernel is the printed kernel read over the extended reals with no operation rewritten, so the statement is True.
theorem preserves : Cert.preserves_Kernel_KernelIdeal := trivial

-- Both idealized programs end with the specification's network of the nine arguments; the arguments' agreement carries one side to the other.
theorem algebraic : Cert.algebraic_KernelIdeal_ReferenceIdeal := by
  intro m ρ m' ρ' _ hagree
  refine ⟨fun c => Cert.Spec.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Gen.kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.RefG.res_eq m' c, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
